-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000 : Shape := ⟨1, ![1600000]⟩
abbrev S65x128 : Shape := ⟨2, ![65, 128]⟩
abbrev S5x128 : Shape := ⟨2, ![5, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S65x128 : S_.BroadcastsInDim S65x128 (![] : Fin 0 → Fin S65x128.rank)
  reducesTo_S65x128_S_d0_1 : S65x128.ReducesTo [0, 1] S_
  bcast_S_S5x128 : S_.BroadcastsInDim S5x128 (![] : Fin 0 → Fin S5x128.rank)
  reducesTo_S5x128_S_d0_1 : S5x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : IVec S100000 32) (main_arg6 : FVec F S5x128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg0 main_v24
  let main_c_9 : IVec S_ 32 := constantI S_ 32 65#32
  let main_v26 : IVec S100000 32 := broadcastInDim S100000 ![] bcast_S_S100000 main_c_9
  let main_v27 : IVec S100000 1 := cmpi .slt main_arg0 main_v26
  let main_v28 : IVec S100000 1 := andi main_v25 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v23 main_v29
  main_v30

def fn {F : FTy → Type} [FloatOps F] (main_arg0 : IVec S100000 32) (main_arg1 : IVec S2x1600000 32) (main_arg2 : FVec F S1600000 .f32) (main_arg3 : FVec F S65x128 .f32) (main_arg4 : FVec F S5x128 .f32) (main_arg5 : FVec F S5x128 .f32) (main_arg6 : FVec F S5x128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S65x128 .f32 := Host.absf main_arg3
  let main_cst_0 : FVec F S_ .f32 := constant S_ .f32 0x7F800000#32
  let main_v5 : FVec F S65x128 .f32 := broadcastInDim S65x128 ![] bcast_S_S65x128 main_cst_0
  let main_v6 : IVec S65x128 1 := cmpf .olt main_v4 main_v5
  let main_c_1 : IVec S_ 1 := constantI S_ 1 1#1
  let main_v7 : IVec S_ 1 := (fun x v => Host.reduce IntOp.andi x v reducesTo_S65x128_S_d0_1 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg0 main_arg6 main_v13 main_v16
-- ==== Kernel.lean ====
abbrev S100000 : Shape := ⟨1, ![100000]⟩
abbrev S2x1600000 : Shape := ⟨2, ![2, 1600000]⟩
abbrev S1600000 : Shape := ⟨1, ![1600000]⟩
abbrev S65x128 : Shape := ⟨2, ![65, 128]⟩
abbrev S5x128 : Shape := ⟨2, ![5, 128]⟩
abbrev S1x1600000 : Shape := ⟨2, ![1, 1600000]⟩
abbrev S_ : Shape := ⟨0, ![]⟩
abbrev S1600000x1 : Shape := ⟨2, ![1600000, 1]⟩
abbrev S100352 : Shape := ⟨1, ![100352]⟩
abbrev S128x128 : Shape := ⟨2, ![128, 128]⟩
abbrev S100352x128 : Shape := ⟨2, ![100352, 128]⟩
abbrev S2048 : Shape := ⟨1, ![2048]⟩
abbrev S2048x128 : Shape := ⟨2, ![2048, 128]⟩
abbrev S2048x1 : Shape := ⟨2, ![2048, 1]⟩
abbrev S100000x128 : Shape := ⟨2, ![100000, 128]⟩
abbrev S1x128 : Shape := ⟨2, ![1, 128]⟩
abbrev S128 : Shape := ⟨1, ![128]⟩
abbrev S1600000x128 : Shape := ⟨2, ![1600000, 128]⟩

abbrev nBuf : Space → Nat
  | .hbm => 262
  | .vmem => 55
  | .smem => 0
  | _ => 0

abbrev hbmTy0_0 (i : Nat) : BufTy := match i % 128 with
  | 0 => ⟨S100000, .i32⟩
  | 1 => ⟨S2x1600000, .i32⟩
  | 2 => ⟨S1600000, .f32⟩
  | 3 => ⟨S65x128, .f32⟩
  | 4 => ⟨S5x128, .f32⟩
  | 5 => ⟨S5x128, .f32⟩
  | 6 => ⟨S5x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S_, .i32⟩
  | 34 => ⟨S100352, .i32⟩
  | 35 => ⟨S_, .i32⟩
  | 36 => ⟨S_, .f32⟩
  | 37 => ⟨S128x128, .f32⟩
  | 38 => ⟨S100352x128, .f32⟩
  | 39 => ⟨S100000x128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S_, .i32⟩
  | 47 => ⟨S_, .f32⟩
  | 48 => ⟨S100352x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S100352x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S1600000x1, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S_, .i32⟩
  | 101 => ⟨S_, .f32⟩
  | 102 => ⟨S100352x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S100000, .i32⟩

abbrev hbmTy0_1 (i : Nat) : BufTy := match i % 128 with
  | 0 => ⟨S1x128, .f32⟩
  | 1 => ⟨S1x128, .f32⟩
  | 2 => ⟨S100352x128, .f32⟩
  | 3 => ⟨S100000x128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S128, .f32⟩
  | 10 => ⟨S_, .i32⟩
  | 11 => ⟨S_, .f32⟩
  | 12 => ⟨S100352x128, .f32⟩
  | 13 => ⟨S1x128, .f32⟩
  | 14 => ⟨S1x128, .f32⟩
  | 15 => ⟨S_, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S100352x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S_, .i32⟩
  | 65 => ⟨S_, .f32⟩
  | 66 => ⟨S100352x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S100352x128, .f32⟩
  | 95 => ⟨S100000x128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S_, .i32⟩
  | 103 => ⟨S_, .f32⟩
  | 104 => ⟨S100352x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S100000, .i32⟩

abbrev hbmTy0_2 (i : Nat) : BufTy := match i % 128 with
  | 0 => ⟨S1x128, .f32⟩
  | 1 => ⟨S1x128, .f32⟩
  | 2 => ⟨S1x128, .f32⟩
  | 3 => ⟨S1x128, .f32⟩
  | 4 => ⟨S100352x128, .f32⟩
  | 5 => ⟨S100000x128, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S2048, .i32⟩
  | .local _ .vmem, ⟨1, _⟩ => ⟨S2048, .i32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x128, .f32⟩
  | .local _ .vmem, ⟨8, _⟩ => ⟨S1x128, .f32⟩
  | .local _ .vmem, ⟨9, _⟩ => ⟨S2048x128, .f32⟩
  | .local _ .vmem, ⟨10, _⟩ => ⟨S2048x128, .f32⟩
  | .local _ .vmem, ⟨11, _⟩ => ⟨S1x128, .f32⟩
  | .local _ .vmem, ⟨12, _⟩ => ⟨S1x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S1x128, .f32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S1x128, .f32⟩
  | .local _ .vmem, ⟨22, _⟩ => ⟨S1x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S1x128, .f32⟩
  | .local _ .vmem, ⟨28, _⟩ => ⟨S1x128, .f32⟩
  | .local _ .vmem, ⟨29, _⟩ => ⟨S2048x128, .f32⟩
  | .local _ .vmem, ⟨30, _⟩ => ⟨S2048x128, .f32⟩
  | .local _ .vmem, ⟨31, _⟩ => ⟨S1x128, .f32⟩
  | .local _ .vmem, ⟨32, _⟩ => ⟨S1x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S1x128, .f32⟩
  | .local _ .vmem, ⟨38, _⟩ => ⟨S1x128, .f32⟩
  | .local _ .vmem, ⟨39, _⟩ => ⟨S2048x128, .f32⟩
  | .local _ .vmem, ⟨40, _⟩ => ⟨S2048x128, .f32⟩
  | .local _ .vmem, ⟨41, _⟩ => ⟨S1x128, .f32⟩
  | .local _ .vmem, ⟨42, _⟩ => ⟨S1x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S1x128, .f32⟩
  | .local _ .vmem, ⟨48, _⟩ => ⟨S1x128, .f32⟩
  | .local _ .vmem, ⟨49, _⟩ => ⟨S2048x128, .f32⟩
  | .local _ .vmem, ⟨50, _⟩ => ⟨S2048x128, .f32⟩
  | .local _ .vmem, ⟨51, _⟩ => ⟨S1x128, .f32⟩
  | .local _ .vmem, ⟨52, _⟩ => ⟨S1x128, .f32⟩
  | .local _ .vmem, ⟨53, _⟩ => ⟨S2048x128, .f32⟩
  | .local _ .vmem, ⟨54, _⟩ => ⟨S2048x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call1_v0 : Ref sig .tc := ⟨.hbm, 33, rfl⟩
abbrev main_v20 : Ref sig .tc := ⟨.hbm, 34, rfl⟩
abbrev main_c_4 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_call3_v0 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_call4_v0 : Ref sig .tc := ⟨.hbm, 101, rfl⟩
abbrev main_v74 : Ref sig .tc := ⟨.hbm, 102, rfl⟩
abbrev main_v75_0 : Ref sig .tc := ⟨.hbm, 103, rfl⟩
abbrev main_v75_1 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_18 : Ref sig .tc := ⟨.hbm, 138, rfl⟩
abbrev main_call5_v0 : Ref sig .tc := ⟨.hbm, 139, rfl⟩
abbrev main_v105 : Ref sig .tc := ⟨.hbm, 140, rfl⟩
abbrev main_v106_0 : Ref sig .tc := ⟨.hbm, 141, rfl⟩
abbrev main_v106_1 : Ref sig .tc := ⟨.hbm, 142, rfl⟩
abbrev main_cst_19 : Ref sig .tc := ⟨.hbm, 143, rfl⟩
abbrev main_v107 : Ref sig .tc := ⟨.hbm, 144, rfl⟩
abbrev main_v108 : Ref sig .tc := ⟨.hbm, 145, rfl⟩
abbrev main_cst_20 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_21 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_22 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_23 : Ref sig .tc := ⟨.hbm, 170, rfl⟩
abbrev main_v130 : Ref sig .tc := ⟨.hbm, 171, rfl⟩
abbrev main_v131 : Ref sig .tc := ⟨.hbm, 172, rfl⟩
abbrev main_c_24 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_25 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_c_26 : Ref sig .tc := ⟨.hbm, 192, rfl⟩
abbrev main_call6_v0 : Ref sig .tc := ⟨.hbm, 193, rfl⟩
abbrev main_v149 : Ref sig .tc := ⟨.hbm, 194, rfl⟩
abbrev main_v150_0 : Ref sig .tc := ⟨.hbm, 195, rfl⟩
abbrev main_v150_1 : Ref sig .tc := ⟨.hbm, 196, rfl⟩
abbrev main_cst_27 : Ref sig .tc := ⟨.hbm, 197, rfl⟩
abbrev main_v151 : Ref sig .tc := ⟨.hbm, 198, rfl⟩
abbrev main_v152 : Ref sig .tc := ⟨.hbm, 199, rfl⟩
abbrev main_cst_28 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_29 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_30 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_c_31 : Ref sig .tc := ⟨.hbm, 230, rfl⟩
abbrev main_call7_v0 : Ref sig .tc := ⟨.hbm, 231, rfl⟩
abbrev main_v180 : Ref sig .tc := ⟨.hbm, 232, rfl⟩
abbrev main_v181_0 : Ref sig .tc := ⟨.hbm, 233, rfl⟩
abbrev main_v181_1 : Ref sig .tc := ⟨.hbm, 234, rfl⟩
abbrev main_cst_32 : Ref sig .tc := ⟨.hbm, 235, rfl⟩
abbrev main_v182 : Ref sig .tc := ⟨.hbm, 236, rfl⟩
abbrev main_v183 : Ref sig .tc := ⟨.hbm, 237, rfl⟩
abbrev main_cst_33 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_34 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_cst_35 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg3_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg3_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc8_stg0_0 : Ref sig .tc := ⟨.vmem, 39, rfl⟩
abbrev cc8_stg0_1 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc8_stg3_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc10_stg0_0 : Ref sig .tc := ⟨.vmem, 49, rfl⟩
abbrev cc10_stg0_1 : Ref sig .tc := ⟨.vmem, 50, rfl⟩
abbrev cc10_stg1_0 : Ref sig .tc := ⟨.vmem, 51, rfl⟩
abbrev cc10_stg2_0 : Ref sig .tc := ⟨.vmem, 52, rfl⟩
abbrev cc10_stg3_0 : Ref sig .tc := ⟨.vmem, 53, rfl⟩
abbrev cc10_stg3_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem3_0 : DmaSem sig := 23
abbrev cc4_sem3_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem3_0 : DmaSem sig := 33
abbrev cc6_sem3_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc8_sem0_0 : DmaSem sig := 39
abbrev cc8_sem0_1 : DmaSem sig := 40
abbrev cc8_sem1_0 : DmaSem sig := 41
abbrev cc8_sem2_0 : DmaSem sig := 42
abbrev cc8_sem3_0 : DmaSem sig := 43
abbrev cc8_sem3_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc10_sem0_0 : DmaSem sig := 49
abbrev cc10_sem0_1 : DmaSem sig := 50
abbrev cc10_sem1_0 : DmaSem sig := 51
abbrev cc10_sem2_0 : DmaSem sig := 52
abbrev cc10_sem3_0 : DmaSem sig := 53
abbrev cc10_sem3_1 : DmaSem sig := 54

abbrev nD : Nat := 1
abbrev τ : Topo := Topo.v7x

variable {F : FTy → Type} [FloatOps F]

abbrev grid0 : Pipeline.Grid := ⟨1, ![49], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![49], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![49], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![49], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![49], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2048x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![49], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2048x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![49], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2048x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2048x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  pads_S100000_S100352_03520 : S100000.Pads (![0] : Fin 1 → Nat) ![352] ![0] S100352
  h_S_ : 0 < S_.numel
  pads_S65x128_S128x128_0630_000 : S65x128.Pads (![0, 0] : Fin 2 → Nat) ![63, 0] ![0, 0] S128x128
  inb_S2048_S2048_0 : ∀ a, (![0] : Fin 1 → Nat) a + S2048.size a ≤ S2048.size a
  h_S2048 : 0 < S2048.numel
  shapeCasts_S2048_S2048 : S2048.ShapeCasts S2048
  iota_S2048x128_d1_w32 : S2048x128.Iotas .tc 32 [1]
  shapeCasts_S2048_S2048x1 : S2048.ShapeCasts S2048x1
  broadcasts_S2048x1_S2048x128 : S2048x1.Broadcasts S2048x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x128_S2048x128_0_0 : ∀ a, (![0, 0] : Fin 2 → Nat) a + S2048x128.size a ≤ S2048x128.size a
  h_S2048x128 : 0 < S2048x128.numel
  slices_S100352x128_S100000x128_0_0 : S100352x128.Slices ![0, 0] S100000x128
  slices_S5x128_S1x128_0_0 : S5x128.Slices ![0, 0] S1x128
  shapeCasts_S1x128_S128 : S1x128.ShapeCasts S128
  pads_S100000x128_S100352x128_03520_000 : S100000x128.Pads (![0, 0] : Fin 2 → Nat) ![352, 0] ![0, 0] S100352x128
  shapeCasts_S2048x128_S2048x128 : S2048x128.ShapeCasts S2048x128
  reduces_S2048x128_S128 : S2048x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x128 : S_.BroadcastsInDim S1x128 (![] : Fin 0 → Fin S1x128.rank)
  bcast_S128_S1x128_1 : S128.BroadcastsInDim S1x128 (![1] : Fin 1 → Fin S1x128.rank)
  broadcasts_S1x128_S2048x128 : S1x128.Broadcasts S2048x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2048x128_S128x128_S2048x128_1_0_0_1_n_n_wf : DotDims.WF S2048x128 S128x128 S2048x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S100352.size a
  hwx0_0 : ∀ i : grid0.Coords, EltTy.bits .i32 = 32 ∨ (Rect.block (s := S100352) S2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .f32 = 32 ∨ (Rect.block (s := S100352x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S100352x128.size a
  hwx2_0 : ∀ i : grid2.Coords, EltTy.bits .f32 = 32 ∨ (Rect.block (s := S100352x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S100352x128.size a
  hwx2_3 : ∀ i : grid2.Coords, EltTy.bits .f32 = 32 ∨ (Rect.block (s := S100352x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S100352x128.size a
  hwx3_0 : ∀ i : grid3.Coords, EltTy.bits .f32 = 32 ∨ (Rect.block (s := S100352x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S100352x128.size a
  hwx4_0 : ∀ i : grid4.Coords, EltTy.bits .f32 = 32 ∨ (Rect.block (s := S100352x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S100352x128.size a
  hwx4_3 : ∀ i : grid4.Coords, EltTy.bits .f32 = 32 ∨ (Rect.block (s := S100352x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S100352x128.size a
  hwx5_0 : ∀ i : grid5.Coords, EltTy.bits .f32 = 32 ∨ (Rect.block (s := S100352x128) S2048x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S100352x128.size a
  hwx6_0 : ∀ i : grid6.Coords, EltTy.bits .f32 = 32 ∨ (Rect.block (s := S100352x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S100352x128.size a
  hwx6_3 : ∀ i : grid6.Coords, EltTy.bits .f32 = 32 ∨ (Rect.block (s := S100352x128) S2048x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S100352x128.size a
  hwx7_0 : ∀ i : grid7.Coords, EltTy.bits .f32 = 32 ∨ (Rect.block (s := S100352x128) S2048x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S100352x128.size a
  hwx8_0 : ∀ i : grid8.Coords, EltTy.bits .f32 = 32 ∨ (Rect.block (s := S100352x128) S2048x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x128.size a ≤ S100352x128.size a
  hwx8_3 : ∀ i : grid8.Coords, EltTy.bits .f32 = 32 ∨ (Rect.block (s := S100352x128) S2048x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x128.size a ≤ S100352x128.size a
  hwx9_0 : ∀ i : grid9.Coords, EltTy.bits .f32 = 32 ∨ (Rect.block (s := S100352x128) S2048x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S100352x128.size a
  hwx10_0 : ∀ i : grid10.Coords, EltTy.bits .f32 = 32 ∨ (Rect.block (s := S100352x128) S2048x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2048x128.size a ≤ S100352x128.size a
  hwx10_3 : ∀ i : grid10.Coords, EltTy.bits .f32 = 32 ∨ (Rect.block (s := S100352x128) S2048x128.size (cc10_transform_3 i) (hinb10_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v20) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75_0) S1x128.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75_1) S1x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v105) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v105) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v127) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S2048x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v149) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v150_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v150_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v149) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v168) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v171) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v172) S2048x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v180) S2048x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v181_0) S1x128.size cc9_transform_1 reads9_1 true true 1 stage9_1 sem9_1
    hrank9 hreads9_1 hinb9_1 nbuf9_1 (Memref.isWhole_whole _) hwx9_1 hstage9_1

abbrev win9_2 : Pipeline.Window sig grid9 :=
  Pipeline.Window.ofSpec (Memref.whole main_v181_1) S1x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v180) S2048x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v199) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v202) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v203) S2048x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000 : Shape := ⟨1, ![1600000]⟩
abbrev S65x128 : Shape := ⟨2, ![65, 128]⟩
abbrev S5x128 : Shape := ⟨2, ![5, 128]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1x128 : Shape := ⟨2, ![1, 128]⟩
abbrev S128 : Shape := ⟨1, ![128]⟩
abbrev S1600000x128 : Shape := ⟨2, ![1600000, 128]⟩

abbrev nBuf : Space → Nat
  | .hbm => 246
  | .vmem => 0
  | .smem => 0
  | _ => 0

abbrev hbmTy0_0 (i : Nat) : BufTy := match i % 128 with
  | 0 => ⟨S100000, .i32⟩
  | 1 => ⟨S2x1600000, .i32⟩
  | 2 => ⟨S1600000, .f32⟩
  | 3 => ⟨S65x128, .f32⟩
  | 4 => ⟨S5x128, .f32⟩
  | 5 => ⟨S5x128, .f32⟩
  | 6 => ⟨S5x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x1, .f32⟩
  | 85 => ⟨S1600000x128, .f32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S128, .f32⟩
  | 109 => ⟨S_, .f32⟩
  | 110 => ⟨S128, .f32⟩
  | 111 => ⟨S128, .f32⟩
  | 112 => ⟨S_, .f32⟩
  | 113 => ⟨S128, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000, .i32⟩

abbrev hbmTy0_1 (i : Nat) : BufTy := match i % 128 with
  | 0 => ⟨S128, .f32⟩
  | 1 => ⟨S1x128, .f32⟩
  | 2 => ⟨S128, .f32⟩
  | 3 => ⟨S_, .f32⟩
  | 4 => ⟨S128, .f32⟩
  | 5 => ⟨S_, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x1, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S_, .f32⟩
  | 57 => ⟨S128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S_, .f32⟩
  | 91 => ⟨S128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S128, .f32⟩
  | 102 => ⟨S_, .f32⟩
  | 103 => ⟨S128, .f32⟩
  | 104 => ⟨S128, .f32⟩
  | 105 => ⟨S_, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_15 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_18 : Ref sig .tc := ⟨.hbm, 131, rfl⟩
abbrev main_v104 : Ref sig .tc := ⟨.hbm, 132, rfl⟩
abbrev main_cst_19 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_20 : Ref sig .tc := ⟨.hbm, 141, rfl⟩
abbrev main_v112 : Ref sig .tc := ⟨.hbm, 142, rfl⟩
abbrev main_cst_21 : Ref sig .tc := ⟨.hbm, 143, rfl⟩
abbrev main_v113 : Ref sig .tc := ⟨.hbm, 144, rfl⟩
abbrev main_v114 : Ref sig .tc := ⟨.hbm, 145, rfl⟩
abbrev main_cst_22 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_call1_cst : Ref sig .tc := ⟨.hbm, 159, rfl⟩
abbrev main_call1_v0 : Ref sig .tc := ⟨.hbm, 160, rfl⟩
abbrev main_v127 : Ref sig .tc := ⟨.hbm, 161, rfl⟩
abbrev main_c_23 : Ref sig .tc := ⟨.hbm, 162, rfl⟩
abbrev main_v128 : Ref sig .tc := ⟨.hbm, 163, rfl⟩
abbrev main_v129 : Ref sig .tc := ⟨.hbm, 164, rfl⟩
abbrev main_c_24 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_25 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_26 : Ref sig .tc := ⟨.hbm, 184, rfl⟩
abbrev main_v147 : Ref sig .tc := ⟨.hbm, 185, rfl⟩
abbrev main_cst_27 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_28 : Ref sig .tc := ⟨.hbm, 194, rfl⟩
abbrev main_v155 : Ref sig .tc := ⟨.hbm, 195, rfl⟩
abbrev main_cst_29 : Ref sig .tc := ⟨.hbm, 196, rfl⟩
abbrev main_v156 : Ref sig .tc := ⟨.hbm, 197, rfl⟩
abbrev main_v157 : Ref sig .tc := ⟨.hbm, 198, rfl⟩
abbrev main_cst_30 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_31 : Ref sig .tc := ⟨.hbm, 218, rfl⟩
abbrev main_v176 : Ref sig .tc := ⟨.hbm, 219, rfl⟩
abbrev main_cst_32 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_33 : Ref sig .tc := ⟨.hbm, 228, rfl⟩
abbrev main_v184 : Ref sig .tc := ⟨.hbm, 229, rfl⟩
abbrev main_cst_34 : Ref sig .tc := ⟨.hbm, 230, rfl⟩
abbrev main_v185 : Ref sig .tc := ⟨.hbm, 231, rfl⟩
abbrev main_v186 : Ref sig .tc := ⟨.hbm, 232, rfl⟩
abbrev main_cst_35 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  slices_S5x128_S1x128_0_0 : S5x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S65x128_S100000x1_S100000x128_1_0_n_n_0_1_1128_wf : GatherDims.WF S65x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S65x128_S100000x1_S100000x128_1_0_n_n_0_1_1128 : GatherDims S65x128 S100000x1 S100000x128 where
  offsetDims := [1]
  collapsedSliceDims := [0]
  operandBatchingDims := []
  startIndicesBatchingDims := []
  startIndexMap := [0]
  indexVectorDim := 1
  sliceSizes := ![1, 128]
  wf := gather_S65x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RefChunks.lean ====
import proofs.«415927_j1254130450626_1_alg».proof.Proof.Gen.ReferenceIdeal
import Idealize.ShloMosaic.Lib.StableHlo.Run

noncomputable section

namespace Cert.ReferenceIdeal.RawRun

open Cert.ReferenceIdeal Cert.ReferenceIdeal.Gen Idealize.ShloMosaic Idealize.ShloMosaic.TcCoe Idealize.SL.Sem Idealize.ShloMosaic.StableHlo

variable {F : FTy → Type} [FloatOps F]

abbrev c0 : List (HloOp τ sig (Elt F)) :=
  [ unary main_arg1 main_v0 ((extractStridedSlice S1x1600000 ![0, 0] · slices_S2x1600000_S1x1600000_0_0)),
    reshape main_v0 main_v1 rfl shapeCasts_S1x1600000_S1600000,
    unary main_arg1 main_v2 ((extractStridedSlice S1x1600000 ![1, 0] · slices_S2x1600000_S1x1600000_1_0)),
    reshape main_v2 main_v3 rfl shapeCasts_S1x1600000_S1600000,
    nullary main_cst (constant S_ .f32 0x00000000#32),
    unary main_cst main_v4 (broadcastInDim S100000 ![] bcast_S_S100000),
    unary main_v1 main_v5 (broadcastInDim S1600000x1 ![0] bcast_S1600000_S1600000x1_0),
    ternary main_v4 main_v5 main_arg2 main_v6 ((fun x i u => Host.scatterAdd scatter_S100000_S1600000x1_S1600000_n_0_0_1 x i u)),
    nullary main_cst_0 (constant S_ .f32 0x3F000000#32),
    unary main_cst_0 main_v7 (broadcastInDim S100000 ![] bcast_S_S100000),
    binary main_v6 main_v7 main_v8 (cmpf .olt),
    nullary main_cst_1 (constant S_ .f32 0x3F800000#32),
    unary main_cst_1 main_v9 (broadcastInDim S100000 ![] bcast_S_S100000),
    binary main_v6 main_v9 main_v10 addf,
    TRef.ternary (TRef.of (T := ⟨S100000, .i1⟩) main_v8) (TRef.of (T := ⟨S100000, .f32⟩) main_v10) (TRef.of (T := ⟨S100000, .f32⟩) main_v6) (TRef.of (T := ⟨S100000, .f32⟩) main_v11) select,
    nullary main_c (constantI S_ 32 0#32),
    unary main_c main_v12 (broadcastInDim S1600000 ![] bcast_S_S1600000),
    binary main_v1 main_v12 main_v13 (cmpi .slt),
    nullary main_c_2 (constantI S_ 32 100000#32),
    unary main_c_2 main_v14 (broadcastInDim S1600000 ![] bcast_S_S1600000),
    binary main_v1 main_v14 main_v15 addi,
    ternary main_v13 main_v15 main_v1 main_v16 select,
    unary main_v16 main_v17 (broadcastInDim S1600000x1 ![0] bcast_S1600000_S1600000x1_0),
    binary main_v11 main_v17 main_v18 ((fun x i => Host.gather gather_S100000_S1600000x1_S1600000_n_0_n_n_0_1_1 x i)),
    binary main_arg2 main_v18 main_v19 Host.divf ]

abbrev c1 : List (HloOp τ sig (Elt F)) :=
  [ nullary main_c_3 (constantI S_ 32 0#32),
    unary main_c_3 main_v20 (broadcastInDim S100000 ![] bcast_S_S100000),
    binary main_arg0 main_v20 main_v21 (cmpi .slt),
    nullary main_c_4 (constantI S_ 32 65#32),
    unary main_c_4 main_v22 (broadcastInDim S100000 ![] bcast_S_S100000),
    binary main_arg0 main_v22 main_v23 addi,
    ternary main_v21 main_v23 main_arg0 main_v24 select,
    unary main_v24 main_v25 (broadcastInDim S100000x1 ![0] bcast_S100000_S100000x1_0),
    binary main_arg3 main_v25 main_v26 ((fun x i => Host.gather gather_S65x128_S100000x1_S100000x128_1_0_n_n_0_1_1128 x i)) ]

abbrev c2 : List (HloOp τ sig (Elt F)) :=
  [ unary main_arg4 main_v27 ((extractStridedSlice S1x128 ![0, 0] · slices_S5x128_S1x128_0_0)),
    reshape main_v27 main_v28 rfl shapeCasts_S1x128_S128,
    unary main_arg5 main_v29 ((extractStridedSlice S1x128 ![0, 0] · slices_S5x128_S1x128_0_0)),
    reshape main_v29 main_v30 rfl shapeCasts_S1x128_S128,
    unary main_arg6 main_v31 ((extractStridedSlice S1x128 ![0, 0] · slices_S5x128_S1x128_0_0)),
    reshape main_v31 main_v32 rfl shapeCasts_S1x128_S128,
    nullary main_cst_5 (constant S_ .f32 0x00000000#32),
    binary main_v26 main_cst_5 main_v33 ((fun x v => Host.reduceAdd x v reducesTo_S100000x128_S128_d0 h_S_)),
    nullary main_cst_6 (constant S_ .f32 0x47C35000#32),
    unary main_cst_6 main_v34 (broadcastInDim S128 ![] bcast_S_S128),
    binary main_v33 main_v34 main_v35 Host.divf,
    binary main_v35 main_v32 main_v36 mulf,
    unary main_v36 main_v37 (broadcastInDim S1x128 ![1] bcast_S128_S1x128_1),
    unary main_v37 main_v38 (broadcastInDim S100000x128 ![0, 1] bcast_S1x128_S100000x128_0_1),
    binary main_v26 main_v38 main_v39 subf,
    binary main_v39 main_v39 main_v40 mulf,
    nullary main_cst_7 (constant S_ .f32 0x00000000#32),
    binary main_v40 main_cst_7 main_v41 ((fun x v => Host.reduceAdd x v reducesTo_S100000x128_S128_d0 h_S_)),
    nullary main_cst_8 (constant S_ .f32 0x47C35000#32),
    unary main_cst_8 main_v42 (broadcastInDim S128 ![] bcast_S_S128),
    binary main_v41 main_v42 main_v43 Host.divf,
    nullary main_cst_9 (constant S_ .f32 0x358637BD#32),
    unary main_cst_9 main_v44 (broadcastInDim S128 ![] bcast_S_S128),
    binary main_v43 main_v44 main_v45 addf,
    unary main_v45 main_v46 Host.sqrt,
    unary main_v28 main_v47 (broadcastInDim S1x128 ![1] bcast_S128_S1x128_1),
    unary main_v47 main_v48 (broadcastInDim S100000x128 ![0, 1] bcast_S1x128_S100000x128_0_1),
    binary main_v48 main_v39 main_v49 mulf,
    unary main_v46 main_v50 (broadcastInDim S1x128 ![1] bcast_S128_S1x128_1),
    unary main_v50 main_v51 (broadcastInDim S100000x128 ![0, 1] bcast_S1x128_S100000x128_0_1),
    binary main_v49 main_v51 main_v52 Host.divf,
    unary main_v30 main_v53 (broadcastInDim S1x128 ![1] bcast_S128_S1x128_1),
    unary main_v53 main_v54 (broadcastInDim S100000x128 ![0, 1] bcast_S1x128_S100000x128_0_1),
    binary main_v52 main_v54 main_v55 addf ]

abbrev c3 : List (HloOp τ sig (Elt F)) :=
  [ nullary main_c_10 (constantI S_ 32 0#32),
    unary main_c_10 main_v56 (broadcastInDim S1600000 ![] bcast_S_S1600000),
    binary main_v3 main_v56 main_v57 (cmpi .slt),
    nullary main_c_11 (constantI S_ 32 100000#32),
    unary main_c_11 main_v58 (broadcastInDim S1600000 ![] bcast_S_S1600000),
    binary main_v3 main_v58 main_v59 addi,
    ternary main_v57 main_v59 main_v3 main_v60 select,
    unary main_v60 main_v61 (broadcastInDim S1600000x1 ![0] bcast_S1600000_S1600000x1_0),
    binary main_v55 main_v61 main_v62 ((fun x i => Host.gather gather_S100000x128_S1600000x1_S1600000x128_1_0_n_n_0_1_1128 x i)),
    unary main_v19 main_v63 (broadcastInDim S1600000x1 ![0] bcast_S1600000_S1600000x1_0),
    unary main_v63 main_v64 (broadcastInDim S1600000x128 ![0, 1] bcast_S1600000x1_S1600000x128_0_1),
    binary main_v62 main_v64 main_v65 mulf,
    nullary main_cst_12 (constant S_ .f32 0x00000000#32),
    unary main_cst_12 main_v66 (broadcastInDim S100000x128 ![] bcast_S_S100000x128),
    unary main_v1 main_v67 (broadcastInDim S1600000x1 ![0] bcast_S1600000_S1600000x1_0),
    ternary main_v66 main_v67 main_v65 main_v68 ((fun x i u => Host.scatterAdd scatter_S100000x128_S1600000x1_S1600000x128_1_0_0_1 x i u)) ]

abbrev c4 : List (HloOp τ sig (Elt F)) :=
  [ unary main_arg4 main_v69 ((extractStridedSlice S1x128 ![1, 0] · slices_S5x128_S1x128_1_0)),
    reshape main_v69 main_v70 rfl shapeCasts_S1x128_S128,
    unary main_arg5 main_v71 ((extractStridedSlice S1x128 ![1, 0] · slices_S5x128_S1x128_1_0)),
    reshape main_v71 main_v72 rfl shapeCasts_S1x128_S128,
    unary main_arg6 main_v73 ((extractStridedSlice S1x128 ![1, 0] · slices_S5x128_S1x128_1_0)),
    reshape main_v73 main_v74 rfl shapeCasts_S1x128_S128,
    nullary main_cst_13 (constant S_ .f32 0x00000000#32),
    binary main_v68 main_cst_13 main_v75 ((fun x v => Host.reduceAdd x v reducesTo_S100000x128_S128_d0 h_S_)),
    nullary main_cst_14 (constant S_ .f32 0x47C35000#32),
    unary main_cst_14 main_v76 (broadcastInDim S128 ![] bcast_S_S128),
    binary main_v75 main_v76 main_v77 Host.divf,
    binary main_v77 main_v74 main_v78 mulf,
    unary main_v78 main_v79 (broadcastInDim S1x128 ![1] bcast_S128_S1x128_1),
    unary main_v79 main_v80 (broadcastInDim S100000x128 ![0, 1] bcast_S1x128_S100000x128_0_1),
    binary main_v68 main_v80 main_v81 subf,
    binary main_v81 main_v81 main_v82 mulf,
    nullary main_cst_15 (constant S_ .f32 0x00000000#32),
    binary main_v82 main_cst_15 main_v83 ((fun x v => Host.reduceAdd x v reducesTo_S100000x128_S128_d0 h_S_)),
    nullary main_cst_16 (constant S_ .f32 0x47C35000#32),
    unary main_cst_16 main_v84 (broadcastInDim S128 ![] bcast_S_S128),
    binary main_v83 main_v84 main_v85 Host.divf,
    nullary main_cst_17 (constant S_ .f32 0x358637BD#32),
    unary main_cst_17 main_v86 (broadcastInDim S128 ![] bcast_S_S128),
    binary main_v85 main_v86 main_v87 addf,
    unary main_v87 main_v88 Host.sqrt,
    unary main_v70 main_v89 (broadcastInDim S1x128 ![1] bcast_S128_S1x128_1),
    unary main_v89 main_v90 (broadcastInDim S100000x128 ![0, 1] bcast_S1x128_S100000x128_0_1),
    binary main_v90 main_v81 main_v91 mulf,
    unary main_v88 main_v92 (broadcastInDim S1x128 ![1] bcast_S128_S1x128_1),
    unary main_v92 main_v93 (broadcastInDim S100000x128 ![0, 1] bcast_S1x128_S100000x128_0_1),
    binary main_v91 main_v93 main_v94 Host.divf,
    unary main_v72 main_v95 (broadcastInDim S1x128 ![1] bcast_S128_S1x128_1),
    unary main_v95 main_v96 (broadcastInDim S100000x128 ![0, 1] bcast_S1x128_S100000x128_0_1),
    binary main_v94 main_v96 main_v97 addf ]

abbrev c5 : List (HloOp τ sig (Elt F)) :=
  [ unary main_arg4 main_v98 ((extractStridedSlice S1x128 ![2, 0] · slices_S5x128_S1x128_2_0)),
    reshape main_v98 main_v99 rfl shapeCasts_S1x128_S128,
    unary main_arg5 main_v100 ((extractStridedSlice S1x128 ![2, 0] · slices_S5x128_S1x128_2_0)),
    reshape main_v100 main_v101 rfl shapeCasts_S1x128_S128,
    unary main_arg6 main_v102 ((extractStridedSlice S1x128 ![2, 0] · slices_S5x128_S1x128_2_0)),
    reshape main_v102 main_v103 rfl shapeCasts_S1x128_S128,
    nullary main_cst_18 (constant S_ .f32 0x00000000#32),
    binary main_v97 main_cst_18 main_v104 ((fun x v => Host.reduceAdd x v reducesTo_S100000x128_S128_d0 h_S_)),
    nullary main_cst_19 (constant S_ .f32 0x47C35000#32),
    unary main_cst_19 main_v105 (broadcastInDim S128 ![] bcast_S_S128),
    binary main_v104 main_v105 main_v106 Host.divf,
    binary main_v106 main_v103 main_v107 mulf,
    unary main_v107 main_v108 (broadcastInDim S1x128 ![1] bcast_S128_S1x128_1),
    unary main_v108 main_v109 (broadcastInDim S100000x128 ![0, 1] bcast_S1x128_S100000x128_0_1),
    binary main_v97 main_v109 main_v110 subf,
    binary main_v110 main_v110 main_v111 mulf,
    nullary main_cst_20 (constant S_ .f32 0x00000000#32),
    binary main_v111 main_cst_20 main_v112 ((fun x v => Host.reduceAdd x v reducesTo_S100000x128_S128_d0 h_S_)),
    nullary main_cst_21 (constant S_ .f32 0x47C35000#32),
    unary main_cst_21 main_v113 (broadcastInDim S128 ![] bcast_S_S128),
    binary main_v112 main_v113 main_v114 Host.divf,
    nullary main_cst_22 (constant S_ .f32 0x358637BD#32),
    unary main_cst_22 main_v115 (broadcastInDim S128 ![] bcast_S_S128),
    binary main_v114 main_v115 main_v116 addf,
    unary main_v116 main_v117 Host.sqrt,
    unary main_v99 main_v118 (broadcastInDim S1x128 ![1] bcast_S128_S1x128_1),
    unary main_v118 main_v119 (broadcastInDim S100000x128 ![0, 1] bcast_S1x128_S100000x128_0_1),
    binary main_v119 main_v110 main_v120 mulf,
    unary main_v117 main_v121 (broadcastInDim S1x128 ![1] bcast_S128_S1x128_1),
    unary main_v121 main_v122 (broadcastInDim S100000x128 ![0, 1] bcast_S1x128_S100000x128_0_1),
    binary main_v120 main_v122 main_v123 Host.divf,
    unary main_v101 main_v124 (broadcastInDim S1x128 ![1] bcast_S128_S1x128_1),
    unary main_v124 main_v125 (broadcastInDim S100000x128 ![0, 1] bcast_S1x128_S100000x128_0_1),
    binary main_v123 main_v125 main_v126 addf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v126) (TRef.of (T := ⟨S100000x128, .f32⟩) main_call1_v0) (TRef.of (T := ⟨S100000x128, .f32⟩) main_v127) maximumf ]

abbrev c6 : List (HloOp τ sig (Elt F)) :=
  [ nullary main_c_23 (constantI S_ 32 0#32),
    unary main_c_23 main_v128 (broadcastInDim S1600000 ![] bcast_S_S1600000),
    binary main_v3 main_v128 main_v129 (cmpi .slt),
    nullary main_c_24 (constantI S_ 32 100000#32),
    unary main_c_24 main_v130 (broadcastInDim S1600000 ![] bcast_S_S1600000),
    binary main_v3 main_v130 main_v131 addi,
    ternary main_v129 main_v131 main_v3 main_v132 select,
    unary main_v132 main_v133 (broadcastInDim S1600000x1 ![0] bcast_S1600000_S1600000x1_0),
    binary main_v127 main_v133 main_v134 ((fun x i => Host.gather gather_S100000x128_S1600000x1_S1600000x128_1_0_n_n_0_1_1128 x i)),
    unary main_v19 main_v135 (broadcastInDim S1600000x1 ![0] bcast_S1600000_S1600000x1_0),
    unary main_v135 main_v136 (broadcastInDim S1600000x128 ![0, 1] bcast_S1600000x1_S1600000x128_0_1),
    binary main_v134 main_v136 main_v137 mulf,
    nullary main_cst_25 (constant S_ .f32 0x00000000#32),
    unary main_cst_25 main_v138 (broadcastInDim S100000x128 ![] bcast_S_S100000x128),
    unary main_v1 main_v139 (broadcastInDim S1600000x1 ![0] bcast_S1600000_S1600000x1_0),
    ternary main_v138 main_v139 main_v137 main_v140 ((fun x i u => Host.scatterAdd scatter_S100000x128_S1600000x1_S1600000x128_1_0_0_1 x i u)) ]

abbrev c7 : List (HloOp τ sig (Elt F)) :=
  [ unary main_arg4 main_v141 ((extractStridedSlice S1x128 ![3, 0] · slices_S5x128_S1x128_3_0)),
    reshape main_v141 main_v142 rfl shapeCasts_S1x128_S128,
    unary main_arg5 main_v143 ((extractStridedSlice S1x128 ![3, 0] · slices_S5x128_S1x128_3_0)),
    reshape main_v143 main_v144 rfl shapeCasts_S1x128_S128,
    unary main_arg6 main_v145 ((extractStridedSlice S1x128 ![3, 0] · slices_S5x128_S1x128_3_0)),
    reshape main_v145 main_v146 rfl shapeCasts_S1x128_S128,
    nullary main_cst_26 (constant S_ .f32 0x00000000#32),
    binary main_v140 main_cst_26 main_v147 ((fun x v => Host.reduceAdd x v reducesTo_S100000x128_S128_d0 h_S_)),
    nullary main_cst_27 (constant S_ .f32 0x47C35000#32),
    unary main_cst_27 main_v148 (broadcastInDim S128 ![] bcast_S_S128),
    binary main_v147 main_v148 main_v149 Host.divf,
    binary main_v149 main_v146 main_v150 mulf,
    unary main_v150 main_v151 (broadcastInDim S1x128 ![1] bcast_S128_S1x128_1),
    unary main_v151 main_v152 (broadcastInDim S100000x128 ![0, 1] bcast_S1x128_S100000x128_0_1),
    binary main_v140 main_v152 main_v153 subf,
    binary main_v153 main_v153 main_v154 mulf,
    nullary main_cst_28 (constant S_ .f32 0x00000000#32),
    binary main_v154 main_cst_28 main_v155 ((fun x v => Host.reduceAdd x v reducesTo_S100000x128_S128_d0 h_S_)),
    nullary main_cst_29 (constant S_ .f32 0x47C35000#32),
    unary main_cst_29 main_v156 (broadcastInDim S128 ![] bcast_S_S128),
    binary main_v155 main_v156 main_v157 Host.divf,
    nullary main_cst_30 (constant S_ .f32 0x358637BD#32),
    unary main_cst_30 main_v158 (broadcastInDim S128 ![] bcast_S_S128),
    binary main_v157 main_v158 main_v159 addf,
    unary main_v159 main_v160 Host.sqrt,
    unary main_v142 main_v161 (broadcastInDim S1x128 ![1] bcast_S128_S1x128_1),
    unary main_v161 main_v162 (broadcastInDim S100000x128 ![0, 1] bcast_S1x128_S100000x128_0_1),
    binary main_v162 main_v153 main_v163 mulf,
    unary main_v160 main_v164 (broadcastInDim S1x128 ![1] bcast_S128_S1x128_1),
    unary main_v164 main_v165 (broadcastInDim S100000x128 ![0, 1] bcast_S1x128_S100000x128_0_1),
    binary main_v163 main_v165 main_v166 Host.divf,
    unary main_v144 main_v167 (broadcastInDim S1x128 ![1] bcast_S128_S1x128_1),
    unary main_v167 main_v168 (broadcastInDim S100000x128 ![0, 1] bcast_S1x128_S100000x128_0_1),
    binary main_v166 main_v168 main_v169 addf ]

abbrev c8 : List (HloOp τ sig (Elt F)) :=
  [ unary main_arg4 main_v170 ((extractStridedSlice S1x128 ![4, 0] · slices_S5x128_S1x128_4_0)),
    reshape main_v170 main_v171 rfl shapeCasts_S1x128_S128,
    unary main_arg5 main_v172 ((extractStridedSlice S1x128 ![4, 0] · slices_S5x128_S1x128_4_0)),
    reshape main_v172 main_v173 rfl shapeCasts_S1x128_S128,
    unary main_arg6 main_v174 ((extractStridedSlice S1x128 ![4, 0] · slices_S5x128_S1x128_4_0)),
    reshape main_v174 main_v175 rfl shapeCasts_S1x128_S128,
    nullary main_cst_31 (constant S_ .f32 0x00000000#32),
    binary main_v169 main_cst_31 main_v176 ((fun x v => Host.reduceAdd x v reducesTo_S100000x128_S128_d0 h_S_)),
    nullary main_cst_32 (constant S_ .f32 0x47C35000#32),
    unary main_cst_32 main_v177 (broadcastInDim S128 ![] bcast_S_S128),
    binary main_v176 main_v177 main_v178 Host.divf,
    binary main_v178 main_v175 main_v179 mulf,
    unary main_v179 main_v180 (broadcastInDim S1x128 ![1] bcast_S128_S1x128_1),
    unary main_v180 main_v181 (broadcastInDim S100000x128 ![0, 1] bcast_S1x128_S100000x128_0_1),
    binary main_v169 main_v181 main_v182 subf,
    binary main_v182 main_v182 main_v183 mulf,
    nullary main_cst_33 (constant S_ .f32 0x00000000#32),
    binary main_v183 main_cst_33 main_v184 ((fun x v => Host.reduceAdd x v reducesTo_S100000x128_S128_d0 h_S_)),
    nullary main_cst_34 (constant S_ .f32 0x47C35000#32),
    unary main_cst_34 main_v185 (broadcastInDim S128 ![] bcast_S_S128),
    binary main_v184 main_v185 main_v186 Host.divf,
    nullary main_cst_35 (constant S_ .f32 0x358637BD#32),
    unary main_cst_35 main_v187 (broadcastInDim S128 ![] bcast_S_S128),
    binary main_v186 main_v187 main_v188 addf,
    unary main_v188 main_v189 Host.sqrt,
    unary main_v171 main_v190 (broadcastInDim S1x128 ![1] bcast_S128_S1x128_1),
    unary main_v190 main_v191 (broadcastInDim S100000x128 ![0, 1] bcast_S1x128_S100000x128_0_1),
    binary main_v191 main_v182 main_v192 mulf,
    unary main_v189 main_v193 (broadcastInDim S1x128 ![1] bcast_S128_S1x128_1),
    unary main_v193 main_v194 (broadcastInDim S100000x128 ![0, 1] bcast_S1x128_S100000x128_0_1),
    binary main_v192 main_v194 main_v195 Host.divf,
    unary main_v173 main_v196 (broadcastInDim S1x128 ![1] bcast_S128_S1x128_1),
    unary main_v196 main_v197 (broadcastInDim S100000x128 ![0, 1] bcast_S1x128_S100000x128_0_1),
    binary main_v195 main_v197 main_v198 addf ]

end Cert.ReferenceIdeal.RawRun

end
-- ==== Proof.RefKeep.lean ====
import proofs.«415927_j1254130450626_1_alg».proof.Proof.RefChunks

noncomputable section

namespace Cert.ReferenceIdeal.RawRun

open Cert.ReferenceIdeal Cert.ReferenceIdeal.Gen Idealize.ShloMosaic Idealize.ShloMosaic.TcCoe Idealize.SL.Sem Idealize.ShloMosaic.StableHlo

variable {F : FTy → Type} [FloatOps F]

noncomputable def W0 : List (Ref sig .tc) :=
  [main_v0, main_v1, main_v2, main_v3, main_cst, main_v4, main_v5, main_v6, main_cst_0, main_v7, main_v8, main_cst_1, main_v9, main_v10, main_v11,
    main_c, main_v12, main_v13, main_c_2, main_v14, main_v15, main_v16, main_v17, main_v18, main_v19]

noncomputable def W1 : List (Ref sig .tc) :=
  [main_c_3, main_v20, main_v21, main_c_4, main_v22, main_v23, main_v24, main_v25, main_v26]

noncomputable def W2 : List (Ref sig .tc) :=
  [main_v27, main_v28, main_v29, main_v30, main_v31, main_v32, main_cst_5, main_v33, main_cst_6, main_v34, main_v35, main_v36, main_v37, main_v38,
    main_v39, main_v40, main_cst_7, main_v41, main_cst_8, main_v42, main_v43, main_cst_9, main_v44, main_v45, main_v46, main_v47, main_v48, main_v49,
    main_v50, main_v51, main_v52, main_v53, main_v54, main_v55]

noncomputable def W3 : List (Ref sig .tc) :=
  [main_c_10, main_v56, main_v57, main_c_11, main_v58, main_v59, main_v60, main_v61, main_v62, main_v63, main_v64, main_v65, main_cst_12, main_v66,
    main_v67, main_v68]

noncomputable def W4 : List (Ref sig .tc) :=
  [main_v69, main_v70, main_v71, main_v72, main_v73, main_v74, main_cst_13, main_v75, main_cst_14, main_v76, main_v77, main_v78, main_v79, main_v80,
    main_v81, main_v82, main_cst_15, main_v83, main_cst_16, main_v84, main_v85, main_cst_17, main_v86, main_v87, main_v88, main_v89, main_v90,
    main_v91, main_v92, main_v93, main_v94, main_v95, main_v96, main_v97]

noncomputable def W5 : List (Ref sig .tc) :=
  [main_v98, main_v99, main_v100, main_v101, main_v102, main_v103, main_cst_18, main_v104, main_cst_19, main_v105, main_v106, main_v107, main_v108,
    main_v109, main_v110, main_v111, main_cst_20, main_v112, main_cst_21, main_v113, main_v114, main_cst_22, main_v115, main_v116, main_v117,
    main_v118, main_v119, main_v120, main_v121, main_v122, main_v123, main_v124, main_v125, main_v126, main_call1_cst, main_call1_v0, main_v127]

noncomputable def W6 : List (Ref sig .tc) :=
  [main_c_23, main_v128, main_v129, main_c_24, main_v130, main_v131, main_v132, main_v133, main_v134, main_v135, main_v136, main_v137, main_cst_25,
    main_v138, main_v139, main_v140]

noncomputable def W7 : List (Ref sig .tc) :=
  [main_v141, main_v142, main_v143, main_v144, main_v145, main_v146, main_cst_26, main_v147, main_cst_27, main_v148, main_v149, main_v150, main_v151,
    main_v152, main_v153, main_v154, main_cst_28, main_v155, main_cst_29, main_v156, main_v157, main_cst_30, main_v158, main_v159, main_v160,
    main_v161, main_v162, main_v163, main_v164, main_v165, main_v166, main_v167, main_v168, main_v169]

noncomputable def W8 : List (Ref sig .tc) :=
  [main_v170, main_v171, main_v172, main_v173, main_v174, main_v175, main_cst_31, main_v176, main_cst_32, main_v177, main_v178, main_v179, main_v180,
    main_v181, main_v182, main_v183, main_cst_33, main_v184, main_cst_34, main_v185, main_v186, main_cst_35, main_v187, main_v188, main_v189,
    main_v190, main_v191, main_v192, main_v193, main_v194, main_v195, main_v196, main_v197, main_v198]

/-- Every operation of `ops` writes one of the buffers `Ws`. -/
abbrev WritesIn (ops : List (HloOp τ sig (Elt F))) (Ws : List (Ref sig .tc)) : Prop :=
  ops.Forall fun op => op.writes ⊆ (Ws.map (Proc.devRef (τ := τ) .tc)).toFinset

-- an operation whose written set is the singleton of a buffer in `Ws` writes within `Ws`
theorem writesIn_of_map {ops : List (HloOp τ sig (Elt F))} {Ws : List (Ref sig .tc)}
    (h : ops.map HloOp.writes = Ws.map fun y => {Proc.devRef (τ := τ) .tc y}) : WritesIn ops Ws :=
  List.forall_iff_forall_mem.mpr fun op hop => by
    obtain ⟨y, hy, e⟩ := List.mem_map.mp (h ▸ List.mem_map_of_mem (f := HloOp.writes) hop)
    rw [← e, Finset.singleton_subset_iff, List.mem_toFinset]
    exact List.mem_map_of_mem hy

theorem c0_writes : WritesIn (c0 (F := F)) W0 := writesIn_of_map rfl
theorem c1_writes : WritesIn (c1 (F := F)) W1 := writesIn_of_map rfl
theorem c2_writes : WritesIn (c2 (F := F)) W2 := writesIn_of_map rfl
theorem c3_writes : WritesIn (c3 (F := F)) W3 := writesIn_of_map rfl
theorem c4_writes : WritesIn (c4 (F := F)) W4 := writesIn_of_map rfl
theorem c5_writes : WritesIn (c5 (F := F)) W5 := writesIn_of_map rfl
theorem c6_writes : WritesIn (c6 (F := F)) W6 := writesIn_of_map rfl
theorem c7_writes : WritesIn (c7 (F := F)) W7 := writesIn_of_map rfl
theorem c8_writes : WritesIn (c8 (F := F)) W8 := writesIn_of_map rfl

-- a buffer outside `Us ++ Ws` that held `L`'s contents before a stretch writing only `Ws` holds them after it
theorem keep_app {ops : List (HloOp τ sig (Elt F))} {Us Ws : List (Ref sig .tc)} {r : Ref sig .tc} {Z L : Valuation τ sig (Elt F)}
    (hW : WritesIn ops Ws) (hZ : r ∉ Us → Z (Proc.devRef .tc r) = L (Proc.devRef .tc r)) (h : r ∉ Us ++ Ws) :
    after ops Z (Proc.devRef .tc r) = L (Proc.devRef .tc r) :=
  (after_of_writes_sub ops Z hW fun m => h (List.mem_append_right _ m)).trans (hZ fun m => h (List.mem_append_left _ m))

end Cert.ReferenceIdeal.RawRun

end
-- ==== Proof.RefAt.lean ====
import proofs.«415927_j1254130450626_1_alg».proof.Proof.RefKeep
import Idealize.ShloMosaic.Lib.Pipeline.Frame

noncomputable section

namespace Cert.ReferenceIdeal.RawRun

open Cert.ReferenceIdeal Cert.ReferenceIdeal.Gen Idealize.ShloMosaic Idealize.ShloMosaic.TcCoe Idealize.SL.Sem Idealize.ShloMosaic.StableHlo

variable {F : FTy → Type} [FloatOps F]

abbrev Z0 (L : Valuation τ sig (Elt F)) : Valuation τ sig (Elt F) := after (c0 (F := F)) L
abbrev Z1 (L : Valuation τ sig (Elt F)) : Valuation τ sig (Elt F) := after (c1 (F := F)) (Z0 L)
abbrev Z2 (L : Valuation τ sig (Elt F)) : Valuation τ sig (Elt F) := after (c2 (F := F)) (Z1 L)
abbrev Z3 (L : Valuation τ sig (Elt F)) : Valuation τ sig (Elt F) := after (c3 (F := F)) (Z2 L)
abbrev Z4 (L : Valuation τ sig (Elt F)) : Valuation τ sig (Elt F) := after (c4 (F := F)) (Z3 L)
abbrev Z5 (L : Valuation τ sig (Elt F)) : Valuation τ sig (Elt F) := after (c5 (F := F)) (Z4 L)
abbrev Z6 (L : Valuation τ sig (Elt F)) : Valuation τ sig (Elt F) := after (c6 (F := F)) (Z5 L)
abbrev Z7 (L : Valuation τ sig (Elt F)) : Valuation τ sig (Elt F) := after (c7 (F := F)) (Z6 L)
abbrev Z8 (L : Valuation τ sig (Elt F)) : Valuation τ sig (Elt F) := after (c8 (F := F)) (Z7 L)

theorem after_ops_Z (L : Valuation τ sig (Elt F)) :
    after (c0 ++ (c1 ++ (c2 ++ (c3 ++ (c4 ++ (c5 ++ (c6 ++ (c7 ++ c8)))))))) L = Z8 L := by
  rw [after_append c0, after_append c1, after_append c2, after_append c3, after_append c4, after_append c5, after_append c6, after_append c7]

section Keep

variable {r : Ref sig .tc} (L : Valuation τ sig (Elt F))

-- a buffer none of stretches 0 to k writes holds at boundary k what it held at the start
theorem Z0_keep : r ∉ W0 → Z0 L (Proc.devRef .tc r) = L (Proc.devRef .tc r) := after_of_writes_sub _ _ c0_writes
theorem Z1_keep : r ∉ W0 ++ W1 → Z1 L (Proc.devRef .tc r) = L (Proc.devRef .tc r) := keep_app c1_writes (Z0_keep L)
theorem Z2_keep : r ∉ W0 ++ W1 ++ W2 → Z2 L (Proc.devRef .tc r) = L (Proc.devRef .tc r) := keep_app c2_writes (Z1_keep L)
theorem Z3_keep : r ∉ W0 ++ W1 ++ W2 ++ W3 → Z3 L (Proc.devRef .tc r) = L (Proc.devRef .tc r) := keep_app c3_writes (Z2_keep L)
theorem Z4_keep : r ∉ W0 ++ W1 ++ W2 ++ W3 ++ W4 → Z4 L (Proc.devRef .tc r) = L (Proc.devRef .tc r) := keep_app c4_writes (Z3_keep L)
theorem Z5_keep : r ∉ W0 ++ W1 ++ W2 ++ W3 ++ W4 ++ W5 → Z5 L (Proc.devRef .tc r) = L (Proc.devRef .tc r) := keep_app c5_writes (Z4_keep L)
theorem Z6_keep : r ∉ W0 ++ W1 ++ W2 ++ W3 ++ W4 ++ W5 ++ W6 → Z6 L (Proc.devRef .tc r) = L (Proc.devRef .tc r) := keep_app c6_writes (Z5_keep L)
theorem Z7_keep : r ∉ W0 ++ W1 ++ W2 ++ W3 ++ W4 ++ W5 ++ W6 ++ W7 → Z7 L (Proc.devRef .tc r) = L (Proc.devRef .tc r) := keep_app c7_writes (Z6_keep L)
theorem Z8_keep : r ∉ W0 ++ W1 ++ W2 ++ W3 ++ W4 ++ W5 ++ W6 ++ W7 ++ W8 → Z8 L (Proc.devRef .tc r) = L (Proc.devRef .tc r) := keep_app c8_writes (Z7_keep L)

-- a buffer none of stretches 1 to k writes holds at boundary k what it held at boundary 0
theorem Z1_keep0 : r ∉ W1 → Z1 L (Proc.devRef .tc r) = Z0 L (Proc.devRef .tc r) := after_of_writes_sub _ _ c1_writes
theorem Z2_keep0 : r ∉ W1 ++ W2 → Z2 L (Proc.devRef .tc r) = Z0 L (Proc.devRef .tc r) := keep_app c2_writes (Z1_keep0 L)
theorem Z3_keep0 : r ∉ W1 ++ W2 ++ W3 → Z3 L (Proc.devRef .tc r) = Z0 L (Proc.devRef .tc r) := keep_app c3_writes (Z2_keep0 L)
theorem Z4_keep0 : r ∉ W1 ++ W2 ++ W3 ++ W4 → Z4 L (Proc.devRef .tc r) = Z0 L (Proc.devRef .tc r) := keep_app c4_writes (Z3_keep0 L)
theorem Z5_keep0 : r ∉ W1 ++ W2 ++ W3 ++ W4 ++ W5 → Z5 L (Proc.devRef .tc r) = Z0 L (Proc.devRef .tc r) := keep_app c5_writes (Z4_keep0 L)

end Keep

theorem Z0_arg0 (L : Valuation τ sig (Elt F)) :
    Z0 L (Proc.devRef .tc main_arg0) = L (Proc.devRef .tc main_arg0) :=
  Z0_keep L (by decide)

theorem Z0_arg3 (L : Valuation τ sig (Elt F)) :
    Z0 L (Proc.devRef .tc main_arg3) = L (Proc.devRef .tc main_arg3) :=
  Z0_keep L (by decide)

theorem Z1_arg4 (L : Valuation τ sig (Elt F)) :
    Z1 L (Proc.devRef .tc main_arg4) = L (Proc.devRef .tc main_arg4) :=
  Z1_keep L (by decide)

theorem Z1_arg5 (L : Valuation τ sig (Elt F)) :
    Z1 L (Proc.devRef .tc main_arg5) = L (Proc.devRef .tc main_arg5) :=
  Z1_keep L (by decide)

theorem Z1_arg6 (L : Valuation τ sig (Elt F)) :
    Z1 L (Proc.devRef .tc main_arg6) = L (Proc.devRef .tc main_arg6) :=
  Z1_keep L (by decide)

theorem Z3_arg4 (L : Valuation τ sig (Elt F)) :
    Z3 L (Proc.devRef .tc main_arg4) = L (Proc.devRef .tc main_arg4) :=
  Z3_keep L (by decide)

theorem Z3_arg5 (L : Valuation τ sig (Elt F)) :
    Z3 L (Proc.devRef .tc main_arg5) = L (Proc.devRef .tc main_arg5) :=
  Z3_keep L (by decide)

theorem Z3_arg6 (L : Valuation τ sig (Elt F)) :
    Z3 L (Proc.devRef .tc main_arg6) = L (Proc.devRef .tc main_arg6) :=
  Z3_keep L (by decide)

theorem Z4_arg4 (L : Valuation τ sig (Elt F)) :
    Z4 L (Proc.devRef .tc main_arg4) = L (Proc.devRef .tc main_arg4) :=
  Z4_keep L (by decide)

theorem Z4_arg5 (L : Valuation τ sig (Elt F)) :
    Z4 L (Proc.devRef .tc main_arg5) = L (Proc.devRef .tc main_arg5) :=
  Z4_keep L (by decide)

theorem Z4_arg6 (L : Valuation τ sig (Elt F)) :
    Z4 L (Proc.devRef .tc main_arg6) = L (Proc.devRef .tc main_arg6) :=
  Z4_keep L (by decide)

theorem Z6_arg4 (L : Valuation τ sig (Elt F)) :
    Z6 L (Proc.devRef .tc main_arg4) = L (Proc.devRef .tc main_arg4) :=
  Z6_keep L (by decide)

theorem Z6_arg5 (L : Valuation τ sig (Elt F)) :
    Z6 L (Proc.devRef .tc main_arg5) = L (Proc.devRef .tc main_arg5) :=
  Z6_keep L (by decide)

theorem Z6_arg6 (L : Valuation τ sig (Elt F)) :
    Z6 L (Proc.devRef .tc main_arg6) = L (Proc.devRef .tc main_arg6) :=
  Z6_keep L (by decide)

theorem Z7_arg4 (L : Valuation τ sig (Elt F)) :
    Z7 L (Proc.devRef .tc main_arg4) = L (Proc.devRef .tc main_arg4) :=
  Z7_keep L (by decide)

theorem Z7_arg5 (L : Valuation τ sig (Elt F)) :
    Z7 L (Proc.devRef .tc main_arg5) = L (Proc.devRef .tc main_arg5) :=
  Z7_keep L (by decide)

theorem Z7_arg6 (L : Valuation τ sig (Elt F)) :
    Z7 L (Proc.devRef .tc main_arg6) = L (Proc.devRef .tc main_arg6) :=
  Z7_keep L (by decide)

theorem Z8_arg0 (L : Valuation τ sig (Elt F)) :
    Z8 L (Proc.devRef .tc main_arg0) = L (Proc.devRef .tc main_arg0) :=
  Z8_keep L (by decide)

theorem Z8_arg1 (L : Valuation τ sig (Elt F)) :
    Z8 L (Proc.devRef .tc main_arg1) = L (Proc.devRef .tc main_arg1) :=
  Z8_keep L (by decide)

theorem Z8_arg2 (L : Valuation τ sig (Elt F)) :
    Z8 L (Proc.devRef .tc main_arg2) = L (Proc.devRef .tc main_arg2) :=
  Z8_keep L (by decide)

theorem Z8_arg3 (L : Valuation τ sig (Elt F)) :
    Z8 L (Proc.devRef .tc main_arg3) = L (Proc.devRef .tc main_arg3) :=
  Z8_keep L (by decide)

theorem Z8_arg4 (L : Valuation τ sig (Elt F)) :
    Z8 L (Proc.devRef .tc main_arg4) = L (Proc.devRef .tc main_arg4) :=
  Z8_keep L (by decide)

theorem Z8_arg5 (L : Valuation τ sig (Elt F)) :
    Z8 L (Proc.devRef .tc main_arg5) = L (Proc.devRef .tc main_arg5) :=
  Z8_keep L (by decide)

theorem Z8_arg6 (L : Valuation τ sig (Elt F)) :
    Z8 L (Proc.devRef .tc main_arg6) = L (Proc.devRef .tc main_arg6) :=
  Z8_keep L (by decide)

theorem Z2_v1 (L : Valuation τ sig (Elt F)) :
    Z2 L (Proc.devRef .tc main_v1) = Z0 L (Proc.devRef .tc main_v1) :=
  Z2_keep0 L (by decide)

theorem Z2_v3 (L : Valuation τ sig (Elt F)) :
    Z2 L (Proc.devRef .tc main_v3) = Z0 L (Proc.devRef .tc main_v3) :=
  Z2_keep0 L (by decide)

theorem Z2_v19 (L : Valuation τ sig (Elt F)) :
    Z2 L (Proc.devRef .tc main_v19) = Z0 L (Proc.devRef .tc main_v19) :=
  Z2_keep0 L (by decide)

theorem Z5_v1 (L : Valuation τ sig (Elt F)) :
    Z5 L (Proc.devRef .tc main_v1) = Z0 L (Proc.devRef .tc main_v1) :=
  Z5_keep0 L (by decide)

theorem Z5_v3 (L : Valuation τ sig (Elt F)) :
    Z5 L (Proc.devRef .tc main_v3) = Z0 L (Proc.devRef .tc main_v3) :=
  Z5_keep0 L (by decide)

theorem Z5_v19 (L : Valuation τ sig (Elt F)) :
    Z5 L (Proc.devRef .tc main_v19) = Z0 L (Proc.devRef .tc main_v19) :=
  Z5_keep0 L (by decide)

end Cert.ReferenceIdeal.RawRun

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Sh2 (a b : Nat) : Shape := ⟨2, ![a, b]⟩

abbrev Sh1 (a : Nat) : Shape := ⟨1, ![a]⟩

abbrev Mat (a b : Nat) : Type := (Sh2 a b).Idx → EReal

abbrev r2 {a b : Nat} (j : (Sh2 a b).Idx) : Fin a := ⟨(j 0).val, idx2_lt0 j⟩

abbrev c2 {a b : Nat} (j : (Sh2 a b).Idx) : Fin b := ⟨(j 1).val, idx2_lt1 j⟩

def colSum (X : Mat 100352 128) : Mat 1 128 := fun j => ∑ p : Fin 100352, X (ix2 p (c2 j))

def colSumSq (X : Mat 100352 128) : Mat 1 128 := fun j => ∑ p : Fin 100352, X (ix2 p (c2 j)) * X (ix2 p (c2 j))

def affine (X : Mat 100352 128) (A B : Mat 1 128) : Mat 100352 128 :=
  fun j => X j * A (ix2 (0 : Fin 1) (c2 j)) + B (ix2 (0 : Fin 1) (c2 j))

def affineRelu (X : Mat 100352 128) (A B : Mat 1 128) : Mat 100352 128 :=
  fun j => max (X j * A (ix2 (0 : Fin 1) (c2 j)) + B (ix2 (0 : Fin 1) (c2 j))) 0

def onehotMat (x : (Sh1 100352).Idx → BitVec 32) (E : Mat 128 128) : Mat 100352 128 :=
  fun j => ∑ k : Fin 128, (if x (ix1 (r2 j)) = BitVec.ofNat 32 k.val then (1 : EReal) else 0) * E (ix2 k (c2 j))

end Cert.Spec

end
-- ==== Proof.KTerms.lean ====
import proofs.«415927_j1254130450626_1_alg».proof.Proof.Gen.KernelIdeal
import proofs.«415927_j1254130450626_1_alg».proof.Proof.Spec

noncomputable section

namespace Cert.KernelIdeal.Val

open Idealize.ShloMosaic Idealize.ShloMosaic.TcCoe
open Cert.KernelIdeal Cert.KernelIdeal.Gen

abbrev C (S : Shape) : Type := FVec Ideal S .f32

def padT (H : C S100000x128) : C S100352x128 :=
  pad S100352x128 ![0, 0] ![352, 0] ![0, 0] H (sitofp (F := Ideal) .f32 (constantI S_ 32 0#32)) pads_S100000x128_S100352x128_03520_000 h_S_

def sliceT (X : C S100352x128) : C S100000x128 :=
  extractStridedSlice S100000x128 ![0, 0] X slices_S100352x128_S100000x128_0_0

def nT : C S1x128 := broadcastInDim S1x128 ![] bcast_S_S1x128 (constant (F := Ideal) S_ .f32 0x47C35000#32)

def epsT : C S1x128 := broadcastInDim S1x128 ![] bcast_S_S1x128 (constant (F := Ideal) S_ .f32 0x358637BD#32)

def twoT : C S1x128 := broadcastInDim S1x128 ![] bcast_S_S1x128 (constant (F := Ideal) S_ .f32 0x40000000#32)

def bc (v : C S128) : C S1x128 := broadcastInDim S1x128 ![1] bcast_S128_S1x128_1 v

def meanT (S1 : C S1x128) : C S1x128 := Host.divf (F := Ideal) S1 nT

def aT (S1 S2 : C S1x128) (w s : C S128) : C S1x128 :=
  Host.divf (F := Ideal) (bc w) (Host.sqrt (F := Ideal) (addf (F := Ideal) (addf (F := Ideal) (Host.divf (F := Ideal) S2 nT) (mulf (F := Ideal) (mulf (F := Ideal) (meanT S1) (meanT S1)) (subf (F := Ideal) (mulf (F := Ideal) (bc s) (bc s)) (mulf (F := Ideal) twoT (bc s))))) epsT))

def bT (S1 S2 : C S1x128) (w b s : C S128) : C S1x128 :=
  subf (F := Ideal) (bc b) (mulf (F := Ideal) (mulf (F := Ideal) (aT S1 S2 w s) (meanT S1)) (bc s))

def klayer (H : C S100000x128) (w b s : C S128) : C S100000x128 :=
  sliceT (Spec.affine (padT H) (aT (Spec.colSum (padT H)) (Spec.colSumSq (padT H)) w s) (bT (Spec.colSum (padT H)) (Spec.colSumSq (padT H)) w b s))

def klayerRelu (H : C S100000x128) (w b s : C S128) : C S100000x128 :=
  sliceT (Spec.affineRelu (padT H) (aT (Spec.colSum (padT H)) (Spec.colSumSq (padT H)) w s) (bT (Spec.colSum (padT H)) (Spec.colSumSq (padT H)) w b s))

def rowT0 (G : C S5x128) : C S128 :=
  shapeCast S128 (extractStridedSlice S1x128 ![0, 0] G slices_S5x128_S1x128_0_0) shapeCasts_S1x128_S128

def rowT1 (G : C S5x128) : C S128 :=
  shapeCast S128 (extractStridedSlice S1x128 ![1, 0] G slices_S5x128_S1x128_1_0) shapeCasts_S1x128_S128

def rowT2 (G : C S5x128) : C S128 :=
  shapeCast S128 (extractStridedSlice S1x128 ![2, 0] G slices_S5x128_S1x128_2_0) shapeCasts_S1x128_S128

def rowT3 (G : C S5x128) : C S128 :=
  shapeCast S128 (extractStridedSlice S1x128 ![3, 0] G slices_S5x128_S1x128_3_0) shapeCasts_S1x128_S128

def rowT4 (G : C S5x128) : C S128 :=
  shapeCast S128 (extractStridedSlice S1x128 ![4, 0] G slices_S5x128_S1x128_4_0) shapeCasts_S1x128_S128

end Cert.KernelIdeal.Val

end
-- ==== Proof.KWrites.lean ====
import proofs.«415927_j1254130450626_1_alg».proof.Proof.Gen.KernelIdeal.Launch
import Idealize.ShloMosaic.Lib.StableHlo.Run

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]

-- Operations that write, in order, the single buffers of `W` each write inside `W`.
theorem forall_writes_sub {ops : List (HloOp τ sig (Elt F))} {W : List (Ref sig .tc)}
    (h : ops.map (·.writes) = W.map fun y => {Proc.devRef .tc y}) :
    ops.Forall fun op => op.writes ⊆ (W.map (Proc.devRef (τ := τ) .tc)).toFinset :=
  List.forall_iff_forall_mem.mpr fun op hop => by
    obtain ⟨y, hy, e⟩ := List.mem_map.mp (h ▸ List.mem_map_of_mem hop)
    exact e ▸ Finset.singleton_subset_iff.mpr (List.mem_toFinset.mpr (List.mem_map_of_mem hy))

theorem hostOps0_writes : (hostOps0 (F := F)).Forall fun op => op.writes ⊆ (([main_v0, main_v1, main_v2, main_v3, main_cst, main_v4, main_v5, main_v6, main_cst_0, main_v7, main_v8, main_cst_1, main_v9, main_v10] : List (Ref sig .tc)).map (Proc.devRef (τ := τ) .tc)).toFinset :=
  forall_writes_sub rfl

theorem hostOps0_1_writes : (hostOps0_1 (F := F)).Forall fun op => op.writes ⊆ (([main_v11] : List (Ref sig .tc)).map (Proc.devRef (τ := τ) .tc)).toFinset :=
  forall_writes_sub rfl

theorem hostOps0_2_writes : (hostOps0_2 (F := F)).Forall fun op => op.writes ⊆ (([main_c, main_v12, main_v13, main_c_2, main_v14, main_v15, main_v16, main_v17, main_v18, main_v19, main_c_3] : List (Ref sig .tc)).map (Proc.devRef (τ := τ) .tc)).toFinset :=
  forall_writes_sub rfl

theorem hostOps0_3_writes : (hostOps0_3 (F := F)).Forall fun op => op.writes ⊆ (([main_call1_v0, main_v20] : List (Ref sig .tc)).map (Proc.devRef (τ := τ) .tc)).toFinset :=
  forall_writes_sub rfl

theorem hostOps0_4_writes : (hostOps0_4 (F := F)).Forall fun op => op.writes ⊆ (([main_c_4] : List (Ref sig .tc)).map (Proc.devRef (τ := τ) .tc)).toFinset :=
  forall_writes_sub rfl

theorem hostOps0_5_writes : (hostOps0_5 (F := F)).Forall fun op => op.writes ⊆ (([main_call2_v0, main_v21] : List (Ref sig .tc)).map (Proc.devRef (τ := τ) .tc)).toFinset :=
  forall_writes_sub rfl

theorem hostOps1_writes : (hostOps1 (F := F)).Forall fun op => op.writes ⊆ (([main_v23, main_v24, main_v25, main_v26, main_v27, main_v28, main_v29, main_c_5] : List (Ref sig .tc)).map (Proc.devRef (τ := τ) .tc)).toFinset :=
  forall_writes_sub rfl

theorem hostOps1_1_writes : (hostOps1_1 (F := F)).Forall fun op => op.writes ⊆ (([main_call3_v0, main_v30] : List (Ref sig .tc)).map (Proc.devRef (τ := τ) .tc)).toFinset :=
  forall_writes_sub rfl

theorem hostOps2_writes : (hostOps2 (F := F)).Forall fun op => op.writes ⊆ (([main_cst_6, main_v32, main_v33, main_cst_7, main_v34, main_v35, main_v36, main_v37, main_v38, main_v39, main_v40, main_cst_8, main_v41, main_v42, main_v43, main_v44, main_v45, main_cst_9, main_v46, main_v47, main_v48, main_v49, main_v50, main_v51, main_v52] : List (Ref sig .tc)).map (Proc.devRef (τ := τ) .tc)).toFinset :=
  forall_writes_sub rfl

theorem hostOps3_writes : (hostOps3 (F := F)).Forall fun op => op.writes ⊆ (([main_v54, main_c_10, main_v55, main_v56, main_c_11, main_v57, main_v58, main_v59, main_v60, main_v61, main_v62, main_v63, main_v64, main_cst_12, main_v65, main_v66, main_v67, main_v68, main_v69, main_v70, main_v71, main_v72, main_v73, main_c_13] : List (Ref sig .tc)).map (Proc.devRef (τ := τ) .tc)).toFinset :=
  forall_writes_sub rfl

theorem hostOps3_1_writes : (hostOps3_1 (F := F)).Forall fun op => op.writes ⊆ (([main_call4_v0, main_v74] : List (Ref sig .tc)).map (Proc.devRef (τ := τ) .tc)).toFinset :=
  forall_writes_sub rfl

theorem hostOps4_writes : (hostOps4 (F := F)).Forall fun op => op.writes ⊆ (([main_cst_14, main_v76, main_v77, main_cst_15, main_v78, main_v79, main_v80, main_v81, main_v82, main_v83, main_v84, main_cst_16, main_v85, main_v86, main_v87, main_v88, main_v89, main_cst_17, main_v90, main_v91, main_v92, main_v93, main_v94, main_v95, main_v96] : List (Ref sig .tc)).map (Proc.devRef (τ := τ) .tc)).toFinset :=
  forall_writes_sub rfl

theorem hostOps5_writes : (hostOps5 (F := F)).Forall fun op => op.writes ⊆ (([main_v98, main_v99, main_v100, main_v101, main_v102, main_v103, main_v104, main_c_18] : List (Ref sig .tc)).map (Proc.devRef (τ := τ) .tc)).toFinset :=
  forall_writes_sub rfl

theorem hostOps5_1_writes : (hostOps5_1 (F := F)).Forall fun op => op.writes ⊆ (([main_call5_v0, main_v105] : List (Ref sig .tc)).map (Proc.devRef (τ := τ) .tc)).toFinset :=
  forall_writes_sub rfl

theorem hostOps6_writes : (hostOps6 (F := F)).Forall fun op => op.writes ⊆ (([main_cst_19, main_v107, main_v108, main_cst_20, main_v109, main_v110, main_v111, main_v112, main_v113, main_v114, main_v115, main_cst_21, main_v116, main_v117, main_v118, main_v119, main_v120, main_cst_22, main_v121, main_v122, main_v123, main_v124, main_v125, main_v126, main_v127] : List (Ref sig .tc)).map (Proc.devRef (τ := τ) .tc)).toFinset :=
  forall_writes_sub rfl

theorem hostOps7_writes : (hostOps7 (F := F)).Forall fun op => op.writes ⊆ (([main_v129, main_c_23, main_v130, main_v131, main_c_24, main_v132, main_v133, main_v134, main_v135, main_v136, main_v137, main_v138, main_v139, main_cst_25, main_v140, main_v141, main_v142, main_v143, main_v144, main_v145, main_v146, main_v147, main_v148, main_c_26] : List (Ref sig .tc)).map (Proc.devRef (τ := τ) .tc)).toFinset :=
  forall_writes_sub rfl

theorem hostOps7_1_writes : (hostOps7_1 (F := F)).Forall fun op => op.writes ⊆ (([main_call6_v0, main_v149] : List (Ref sig .tc)).map (Proc.devRef (τ := τ) .tc)).toFinset :=
  forall_writes_sub rfl

theorem hostOps8_writes : (hostOps8 (F := F)).Forall fun op => op.writes ⊆ (([main_cst_27, main_v151, main_v152, main_cst_28, main_v153, main_v154, main_v155, main_v156, main_v157, main_v158, main_v159, main_cst_29, main_v160, main_v161, main_v162, main_v163, main_v164, main_cst_30, main_v165, main_v166, main_v167, main_v168, main_v169, main_v170, main_v171] : List (Ref sig .tc)).map (Proc.devRef (τ := τ) .tc)).toFinset :=
  forall_writes_sub rfl

theorem hostOps9_1_writes : (hostOps9_1 (F := F)).Forall fun op => op.writes ⊆ (([main_call7_v0, main_v180] : List (Ref sig .tc)).map (Proc.devRef (τ := τ) .tc)).toFinset :=
  forall_writes_sub rfl

theorem hostOps10_writes : (hostOps10 (F := F)).Forall fun op => op.writes ⊆ (([main_cst_32, main_v182, main_v183, main_cst_33, main_v184, main_v185, main_v186, main_v187, main_v188, main_v189, main_v190, main_cst_34, main_v191, main_v192, main_v193, main_v194, main_v195, main_cst_35, main_v196, main_v197, main_v198, main_v199, main_v200, main_v201, main_v202] : List (Ref sig .tc)).map (Proc.devRef (τ := τ) .tc)).toFinset :=
  forall_writes_sub rfl

end Cert.KernelIdeal.Val

end
-- ==== Proof.KKeep.lean ====
import proofs.«415927_j1254130450626_1_alg».proof.Proof.Gen.KernelIdeal.Frame
import proofs.«415927_j1254130450626_1_alg».proof.Proof.KWrites

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]

-- Two valuations hold the same at every buffer of `K`.
def AgreeOn (K : List (Ref sig .tc)) (X Y : Valuation τ sig (Elt F)) : Prop :=
  ∀ r ∈ K, X (Proc.devRef .tc r) = Y (Proc.devRef .tc r)

section
variable {K : List (Ref sig .tc)} {X Y Z : Valuation τ sig (Elt F)}

theorem AgreeOn.trans (h₁ : AgreeOn K X Y) (h₂ : AgreeOn K Y Z) : AgreeOn K X Z :=
  fun r hr => (h₁ r hr).trans (h₂ r hr)

-- A stretch changes no buffer outside the list it writes.
theorem agree_host {W : List (Ref sig .tc)} {ops : List (HloOp τ sig (Elt F))}
    (hW : ops.Forall fun op => op.writes ⊆ (W.map (Proc.devRef (τ := τ) .tc)).toFinset) (hK : ∀ r ∈ K, r ∉ W) :
    AgreeOn K (after ops X) X :=
  fun r hr => after_of_writes_sub ops X hW (hK r hr)

-- A region changes no buffer that is not one of its arrays.
theorem agree_region {ι : Type} {a : ι → Ref sig .tc}
    (h : ∀ b, (∀ w, a w ≠ b) → X (Proc.devRef .tc b) = Y (Proc.devRef .tc b)) (hK : ∀ r ∈ K, ∀ w, a w ≠ r) :
    AgreeOn K X Y :=
  fun r hr => h r (hK r hr)

end

variable (m : (ℓ : Loc nD τ sig) → Buf (Elt F) ℓ) (ρ : Dev nD → PrngReg)

abbrev keepArgs : List (Ref sig .tc) := [main_arg4, main_arg5, main_arg6]
abbrev keepAll : List (Ref sig .tc) := keepArgs ++ [main_v1, main_v3, main_v19]

theorem W3_keep (c : Dev nD) : AgreeOn keepArgs (W3 m ρ c) (W0 m ρ c) :=
  (agree_host hostOps0_2_writes (by decide)).trans <| (agree_host hostOps0_1_writes (by decide)).trans <|
    agree_host hostOps0_writes (by decide)

theorem W7_keep (c : Dev nD) : AgreeOn keepAll (W7 m ρ c) (W3 m ρ c) :=
  (agree_region (W7_of_ne m ρ c) (by decide)).trans <| (agree_host hostOps0_5_writes (by decide)).trans <|
    (agree_host hostOps0_4_writes (by decide)).trans <| agree_host hostOps0_3_writes (by decide)

theorem W12_keep (c : Dev nD) : AgreeOn keepAll (W12 m ρ c) (W3 m ρ c) :=
  (agree_region (W12_of_ne m ρ c) (by decide)).trans <| (agree_host hostOps2_writes (by decide)).trans <|
    (agree_region (W10_of_ne m ρ c) (by decide)).trans <| (agree_host hostOps1_1_writes (by decide)).trans <|
    (agree_host hostOps1_writes (by decide)).trans (W7_keep m ρ c)

theorem W17_keep (c : Dev nD) : AgreeOn keepAll (W17 m ρ c) (W3 m ρ c) :=
  (agree_region (W17_of_ne m ρ c) (by decide)).trans <| (agree_host hostOps4_writes (by decide)).trans <|
    (agree_region (W15_of_ne m ρ c) (by decide)).trans <| (agree_host hostOps3_1_writes (by decide)).trans <|
    (agree_host hostOps3_writes (by decide)).trans (W12_keep m ρ c)

theorem W22_keep (c : Dev nD) : AgreeOn keepAll (W22 m ρ c) (W3 m ρ c) :=
  (agree_region (W22_of_ne m ρ c) (by decide)).trans <| (agree_host hostOps6_writes (by decide)).trans <|
    (agree_region (W20_of_ne m ρ c) (by decide)).trans <| (agree_host hostOps5_1_writes (by decide)).trans <|
    (agree_host hostOps5_writes (by decide)).trans (W17_keep m ρ c)

theorem W27_keep (c : Dev nD) : AgreeOn keepAll (W27 m ρ c) (W3 m ρ c) :=
  (agree_region (W27_of_ne m ρ c) (by decide)).trans <| (agree_host hostOps8_writes (by decide)).trans <|
    (agree_region (W25_of_ne m ρ c) (by decide)).trans <| (agree_host hostOps7_1_writes (by decide)).trans <|
    (agree_host hostOps7_writes (by decide)).trans (W22_keep m ρ c)

theorem W7_arg4 (c : Dev nD) : W7 m ρ c (Proc.devRef .tc main_arg4) = m ((c : Thread nD τ).loc main_arg4) :=
  (W7_keep m ρ c _ (by decide)).trans (W3_keep m ρ c _ (by decide))

theorem W12_arg4 (c : Dev nD) : W12 m ρ c (Proc.devRef .tc main_arg4) = m ((c : Thread nD τ).loc main_arg4) :=
  (W12_keep m ρ c _ (by decide)).trans (W3_keep m ρ c _ (by decide))

theorem W17_arg4 (c : Dev nD) : W17 m ρ c (Proc.devRef .tc main_arg4) = m ((c : Thread nD τ).loc main_arg4) :=
  (W17_keep m ρ c _ (by decide)).trans (W3_keep m ρ c _ (by decide))

theorem W22_arg4 (c : Dev nD) : W22 m ρ c (Proc.devRef .tc main_arg4) = m ((c : Thread nD τ).loc main_arg4) :=
  (W22_keep m ρ c _ (by decide)).trans (W3_keep m ρ c _ (by decide))

theorem W27_arg4 (c : Dev nD) : W27 m ρ c (Proc.devRef .tc main_arg4) = m ((c : Thread nD τ).loc main_arg4) :=
  (W27_keep m ρ c _ (by decide)).trans (W3_keep m ρ c _ (by decide))

theorem W7_arg5 (c : Dev nD) : W7 m ρ c (Proc.devRef .tc main_arg5) = m ((c : Thread nD τ).loc main_arg5) :=
  (W7_keep m ρ c _ (by decide)).trans (W3_keep m ρ c _ (by decide))

theorem W12_arg5 (c : Dev nD) : W12 m ρ c (Proc.devRef .tc main_arg5) = m ((c : Thread nD τ).loc main_arg5) :=
  (W12_keep m ρ c _ (by decide)).trans (W3_keep m ρ c _ (by decide))

theorem W17_arg5 (c : Dev nD) : W17 m ρ c (Proc.devRef .tc main_arg5) = m ((c : Thread nD τ).loc main_arg5) :=
  (W17_keep m ρ c _ (by decide)).trans (W3_keep m ρ c _ (by decide))

theorem W22_arg5 (c : Dev nD) : W22 m ρ c (Proc.devRef .tc main_arg5) = m ((c : Thread nD τ).loc main_arg5) :=
  (W22_keep m ρ c _ (by decide)).trans (W3_keep m ρ c _ (by decide))

theorem W27_arg5 (c : Dev nD) : W27 m ρ c (Proc.devRef .tc main_arg5) = m ((c : Thread nD τ).loc main_arg5) :=
  (W27_keep m ρ c _ (by decide)).trans (W3_keep m ρ c _ (by decide))

theorem W7_arg6 (c : Dev nD) : W7 m ρ c (Proc.devRef .tc main_arg6) = m ((c : Thread nD τ).loc main_arg6) :=
  (W7_keep m ρ c _ (by decide)).trans (W3_keep m ρ c _ (by decide))

theorem W12_arg6 (c : Dev nD) : W12 m ρ c (Proc.devRef .tc main_arg6) = m ((c : Thread nD τ).loc main_arg6) :=
  (W12_keep m ρ c _ (by decide)).trans (W3_keep m ρ c _ (by decide))

theorem W17_arg6 (c : Dev nD) : W17 m ρ c (Proc.devRef .tc main_arg6) = m ((c : Thread nD τ).loc main_arg6) :=
  (W17_keep m ρ c _ (by decide)).trans (W3_keep m ρ c _ (by decide))

theorem W22_arg6 (c : Dev nD) : W22 m ρ c (Proc.devRef .tc main_arg6) = m ((c : Thread nD τ).loc main_arg6) :=
  (W22_keep m ρ c _ (by decide)).trans (W3_keep m ρ c _ (by decide))

theorem W27_arg6 (c : Dev nD) : W27 m ρ c (Proc.devRef .tc main_arg6) = m ((c : Thread nD τ).loc main_arg6) :=
  (W27_keep m ρ c _ (by decide)).trans (W3_keep m ρ c _ (by decide))

theorem W12_v1 (c : Dev nD) : W12 m ρ c (Proc.devRef .tc main_v1) = W3 m ρ c (Proc.devRef .tc main_v1) :=
  W12_keep m ρ c _ (by decide)

theorem W22_v1 (c : Dev nD) : W22 m ρ c (Proc.devRef .tc main_v1) = W3 m ρ c (Proc.devRef .tc main_v1) :=
  W22_keep m ρ c _ (by decide)

theorem W12_v3 (c : Dev nD) : W12 m ρ c (Proc.devRef .tc main_v3) = W3 m ρ c (Proc.devRef .tc main_v3) :=
  W12_keep m ρ c _ (by decide)

theorem W22_v3 (c : Dev nD) : W22 m ρ c (Proc.devRef .tc main_v3) = W3 m ρ c (Proc.devRef .tc main_v3) :=
  W22_keep m ρ c _ (by decide)

theorem W12_v19 (c : Dev nD) : W12 m ρ c (Proc.devRef .tc main_v19) = W3 m ρ c (Proc.devRef .tc main_v19) :=
  W12_keep m ρ c _ (by decide)

theorem W22_v19 (c : Dev nD) : W22 m ρ c (Proc.devRef .tc main_v19) = W3 m ρ c (Proc.devRef .tc main_v19) :=
  W22_keep m ρ c _ (by decide)

end Cert.KernelIdeal.Val

end
-- ==== Proof.LayerCommon.lean ====
import proofs.«415927_j1254130450626_1_alg».proof.Proof.KTerms
import proofs.«415927_j1254130450626_1_alg».proof.Proof.KKeep

namespace Cert.KernelIdeal.Val

open Idealize.ShloMosaic Cert.KernelIdeal Cert.KernelIdeal.Gen

/-- One layer from what its stretches leave at their boundaries, last first: substitute each equation into the one before. -/
theorem layer_eq (f : C S100352x128 → C S1x128 → C S1x128 → C S100352x128) {x o : C S100000x128}
    {p p' p'' q : C S100352x128} {w b s w' b' s' : C S128} {s1 s2 a d : C S1x128}
    (ho : o = sliceT q) (hq : q = f p'' a d) (hp'' : p'' = p') (ha : a = aT s1 s2 w' s') (hd : d = bT s1 s2 w' b' s')
    (hr : w' = w ∧ b' = b ∧ s' = s) (h1 : s1 = Spec.colSum p) (h2 : s2 = Spec.colSumSq p) (hp' : p' = p)
    (hp : p = padT x) :
    o = sliceT (f (padT x) (aT (Spec.colSum (padT x)) (Spec.colSumSq (padT x)) w s)
      (bT (Spec.colSum (padT x)) (Spec.colSumSq (padT x)) w b s)) := by
  obtain ⟨rfl, rfl, rfl⟩ := hr
  subst_vars
  rfl

end Cert.KernelIdeal.Val
-- ==== Proof.StatsCommon.lean ====
import proofs.«415927_j1254130450626_1_alg».proof.Proof.Gen.KernelIdeal.Skeleton
import proofs.«415927_j1254130450626_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Val

open Idealize.ShloMosaic Idealize.ShloMosaic.TcCoe Idealize.SL.Sem
open Cert.KernelIdeal Cert.KernelIdeal.Gen
open Idealize.ShloMosaic.ValueIdx

theorem hz2 : (![0, 0] : Fin 2 → Nat) = fun _ => 0 := funext fun a => by fin_cases a <;> rfl

-- The sum over axis 0 of a [2048,128] block, read as a [1,128] row, is the sum down each column.
theorem colred_apply (y : FVec Ideal S2048x128 .f32) (q : Fin 128) :
    shapeCast S1x128 (multiReduction .add [0] S128 y 0x00000000#32 reduces_S2048x128_S128 (.inl rfl) rfl) shapeCasts_S128_S1x128 (ix2 (0 : Fin 1) q)
      = ∑ r : Fin 2048, y (ix2 r q) := by
  refine (shapeCast_addUnit_apply (![128] : Fin 1 → Nat) _ shapeCasts_S128_S1x128 (ix2 (0 : Fin 1) q)).trans ?_
  refine (Ideal.multiReduction_add_single y 0x00000000#32 reduces_S2048x128_S128 (.inl rfl) rfl _).trans ?_
  refine Finset.sum_congr rfl fun r _ => congrArg y ?_
  funext a
  match a with
  | ⟨0, _⟩ => rfl
  | ⟨1, _⟩ => rfl

theorem pay4_apply (x : FVec Ideal S2048x128 .f32) (acc : FVec Ideal S1x128 .f32) (q : Fin 128) :
    k1_pay4 (F := Ideal) x acc (ix2 (0 : Fin 1) q) = acc (ix2 (0 : Fin 1) q) + ∑ r : Fin 2048, x (ix2 r q) := by
  unfold k1_pay4 k1_pay1
  dsimp only
  simp only [shapeCast_self]
  exact congrArg (acc (ix2 (0 : Fin 1) q) + ·) (colred_apply x q)

theorem pay5_apply (x : FVec Ideal S2048x128 .f32) (acc : FVec Ideal S1x128 .f32) (q : Fin 128) :
    k1_pay5 (F := Ideal) x acc (ix2 (0 : Fin 1) q) = acc (ix2 (0 : Fin 1) q) + ∑ r : Fin 2048, x (ix2 r q) * x (ix2 r q) := by
  unfold k1_pay5 k1_pay1
  dsimp only
  simp only [shapeCast_self]
  exact congrArg (acc (ix2 (0 : Fin 1) q) + ·) (colred_apply (mulf x x) q)

theorem pay2_apply (j : S1x128.Idx) : k1_pay2 (F := Ideal) j = 0 := by
  unfold k1_pay2
  exact Ideal.ofBits_zero_f32

theorem pay3_apply (j : S1x128.Idx) : k1_pay3 (F := Ideal) j = 0 := by
  unfold k1_pay3
  exact Ideal.ofBits_zero_f32

-- Entry (p, q) of a [100352,128] array for every natural p: 0 past the last row.
def row (X : Spec.Mat 100352 128) (p : ℕ) (q : Fin 128) : EReal :=
  if h : p < 100352 then X (ix2 (⟨p, h⟩ : Fin 100352) q) else 0

theorem row_of_lt (X : Spec.Mat 100352 128) (p : Fin 100352) (q : Fin 128) : row X p.val q = X (ix2 p q) := by
  unfold row
  rw [dif_pos p.isLt]

-- 49 blocks of 2048 rows are the 100352 rows.
theorem regroup (f : ℕ → EReal) (g : Fin 100352 → EReal) (hfg : ∀ p : Fin 100352, f p.val = g p) :
    ∑ s ∈ Finset.range 49, ∑ r : Fin 2048, f (2048 * s + r.val) = ∑ p : Fin 100352, g p := by
  refine (Finset.sum_range fun s => ∑ r : Fin 2048, f (2048 * s + r.val)).trans ?_
  refine (Fintype.sum_prod_type' fun (s : Fin 49) (r : Fin 2048) => f (2048 * s.val + r.val)).symm.trans ?_
  refine (Fintype.sum_congr _ _ fun x => ?_).trans (Equiv.sum_comp (finProdFinEquiv (m := 49) (n := 2048)) g)
  refine (congrArg f ?_).trans (hfg (finProdFinEquiv x))
  show 2048 * x.1.val + x.2.val = x.2.val + 2048 * x.1.val
  omega

section Accumulate

variable {N : ℕ} (X : Spec.Mat 100352 128) (blk : Fin N → FVec Ideal S2048x128 .f32)
  (o : (n : ℕ) → n < N → FVec Ideal S1x128 .f32 × FVec Ideal S1x128 .f32)
  (hblk : ∀ (t : Fin N) (r : Fin 2048) (q : Fin 128), blk t (ix2 r q) = row X (2048 * t.val + r.val) q)
  (hA : ∀ h : 0 < N, o 0 h = (k1_pay4 (blk ⟨0, h⟩) k1_pay2, k1_pay5 (blk ⟨0, h⟩) k1_pay3))
  (hB : ∀ (n : ℕ) (h : n + 1 < N), o (n + 1) h
    = (k1_pay4 (blk ⟨n + 1, h⟩) (o n (Nat.lt_of_succ_lt h)).1, k1_pay5 (blk ⟨n + 1, h⟩) (o n (Nat.lt_of_succ_lt h)).2))

include hblk hA hB in
-- Point 0 starts both rows at zero and each point adds its block's column sums: after point n they hold the sums over rows below 2048·(n+1).
theorem acc_inv : ∀ (n : ℕ) (h : n < N) (q : Fin 128),
    (o n h).1 (ix2 (0 : Fin 1) q) = ∑ s ∈ Finset.range (n + 1), ∑ r : Fin 2048, row X (2048 * s + r.val) q
    ∧ (o n h).2 (ix2 (0 : Fin 1) q)
      = ∑ s ∈ Finset.range (n + 1), ∑ r : Fin 2048, row X (2048 * s + r.val) q * row X (2048 * s + r.val) q
  | 0, h, q => by
    rw [hA h]
    dsimp only
    refine ⟨(pay4_apply _ _ q).trans ?_, (pay5_apply _ _ q).trans ?_⟩
    · rw [pay2_apply, zero_add, Finset.sum_range_one]
      exact Finset.sum_congr rfl fun r _ => hblk ⟨0, h⟩ r q
    · rw [pay3_apply, zero_add, Finset.sum_range_one]
      exact Finset.sum_congr rfl fun r _ => congrArg₂ (· * ·) (hblk ⟨0, h⟩ r q) (hblk ⟨0, h⟩ r q)
  | n + 1, h, q => by
    obtain ⟨i1, i2⟩ := acc_inv n (Nat.lt_of_succ_lt h) q
    rw [hB n h]
    dsimp only
    refine ⟨(pay4_apply _ _ q).trans ?_, (pay5_apply _ _ q).trans ?_⟩
    · rw [i1, Finset.sum_range_succ _ (n + 1)]
      exact congrArg (_ + ·) (Finset.sum_congr rfl fun r _ => hblk ⟨n + 1, h⟩ r q)
    · rw [i2, Finset.sum_range_succ _ (n + 1)]
      exact congrArg (_ + ·) (Finset.sum_congr rfl fun r _ =>
        congrArg₂ (· * ·) (hblk ⟨n + 1, h⟩ r q) (hblk ⟨n + 1, h⟩ r q))

include hblk hA hB in
theorem acc_end (h48 : 48 < N) :
    ((o 48 h48).1 : Spec.Mat 1 128) = Spec.colSum X ∧ ((o 48 h48).2 : Spec.Mat 1 128) = Spec.colSumSq X := by
  constructor <;> funext j <;>
    obtain ⟨a, q, rfl⟩ : ∃ (a : Fin 1) (q : Fin 128), j = ix2 a q := ⟨j 0, j 1, eq_ix2 j⟩ <;>
    obtain rfl : a = 0 := Subsingleton.elim _ _
  · refine (acc_inv X blk o hblk hA hB 48 h48 q).1.trans ?_
    unfold Spec.colSum
    exact regroup (fun p => row X p q) (fun p => X (ix2 p (Spec.c2 (ix2 (0 : Fin 1) q)))) (fun p => row_of_lt X p q)
  · refine (acc_inv X blk o hblk hA hB 48 h48 q).2.trans ?_
    unfold Spec.colSumSq
    exact regroup (fun p => row X p q * row X p q)
      (fun p => X (ix2 p (Spec.c2 (ix2 (0 : Fin 1) q))) * X (ix2 p (Spec.c2 (ix2 (0 : Fin 1) q))))
      (fun p => congrArg₂ (· * ·) (row_of_lt X p q) (row_of_lt X p q))

end Accumulate

-- A rectangle that starts at 0 and has the array's extents holds every index.
theorem mem_whole {S : Shape} (i : S.Idx) (lo ext : Fin S.rank → ℕ) (hlo : ∀ a, lo a = 0) (hext : ∀ a, ext a = S.size a) :
    ∀ a, lo a ≤ (i a).val ∧ (i a).val < lo a + ext a := fun a => by
  rw [hlo a, hext a, Nat.zero_add]
  exact ⟨Nat.zero_le _, (i a).isLt⟩

end Cert.KernelIdeal.Val

end
-- ==== Proof.RegStats1.lean ====
import proofs.«415927_j1254130450626_1_alg».proof.Proof.Gen.KernelIdeal.Frame
import proofs.«415927_j1254130450626_1_alg».proof.Proof.StatsCommon

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

section Pieces
variable {F : FTy → Type} [FloatOps F] (c : Dev nD) (i : grid1.Coords) (a1 : Memref sig .tc .vmem S2048x128 .f32) (h1 : a1.IsWhole)
  (a2 : Memref sig .tc .vmem S1x128 .f32) (h2 : a2.IsWhole) (a3 : Memref sig .tc .vmem S1x128 .f32) (h3 : a3.IsWhole)
  (x : Vec F S2048x128 .f32)

theorem stats1_B (hc : ¬cond1_0 i) (xo1 xo2 : Vec F S1x128 .f32) :
    (out1_B_1 c i a1 h1 a2 h2 a3 h3 hc x xo1 xo2, out1_B_2 c i a1 h1 a2 h2 a3 h3 hc x xo1 xo2)
      = (k1_pay4 x xo1, k1_pay5 x xo2) := by
  unfold out1_B_1 out1_B_2
  rw [View.read_writes_eq_canon _ _ _ (cover1_B_1 c i a1 h1 a2 h2 a3 h3 hc x xo1 xo2),
    View.read_writes_eq_canon _ _ _ (cover1_B_2 c i a1 h1 a2 h2 a3 h3 hc x xo1 xo2)]
  unfold kernelRun1_B
  dsimp only
  sl_unfold_words
  simp only [View.canon_unit_zero (S := S1x128) hz2, View.readAt_eq_ld, h1.read_unread, h2.read_unread, h3.read_unread,
    View.ld_unit_zero (S := S2048x128) hz2, View.ld_unit_zero (S := S1x128) hz2]

theorem stats1_A (hc : cond1_0 i) :
    (out1_A_1 c i a1 h1 a2 h2 a3 h3 hc x, out1_A_2 c i a1 h1 a2 h2 a3 h3 hc x)
      = (k1_pay4 x (k1_pay2 (F := F)), k1_pay5 x (k1_pay3 (F := F))) := by
  unfold out1_A_1 out1_A_2
  rw [View.read_writes_eq_canon _ _ _ (cover1_A_1 c i a1 h1 a2 h2 a3 h3 hc x),
    View.read_writes_eq_canon _ _ _ (cover1_A_2 c i a1 h1 a2 h2 a3 h3 hc x)]
  unfold kernelRun1_A
  dsimp only
  sl_unfold_words
  simp only [View.canon_cons_unit_zero (S := S1x128) hz2, View.readCov_unit_zero (S := S1x128) _ hz2, View.readAt_eq_ld,
    h1.read_unread, View.ld_unit_zero (S := S2048x128) hz2]

end Pieces

theorem stats1_idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

-- Entry (r, q) of the block at point t is entry (2048·t + r, q) of the input.
theorem stats1_blk_apply (c : Dev nD) (t : Fin cfg1.N) (r : Fin 2048) (q : Fin 128) :
    (iblk1 V c 0 t : FVec Ideal S2048x128 .f32) (ix2 r q) = row (V c main_v30) (2048 * t.val + r.val) q := by
  obtain ⟨e0, e1⟩ := stats1_idx0 t
  have hN : t.val < 49 := lt_of_lt_of_eq t.isLt (show cfg1.N = 49 from N_1)
  have hr : r.val < 2048 := r.isLt
  have hp : 2048 * t.val + r.val < 100352 := by omega
  refine Eq.trans ?_ (row_of_lt (V c main_v30) ⟨2048 * t.val + r.val, hp⟩ q).symm
  show iblk1 V c 0 t (ix2 r q) = V c main_v30 _
  unfold iblk1
  rw [View.read_apply]
  show V c main_v30 _ = V c main_v30 _
  congr 1
  funext a
  apply Fin.ext
  match a with
  | ⟨0, _⟩ => show win1_0.index t (0 : Fin 2) * 2048 + 1 * r.val = 2048 * t.val + r.val; rw [e0]; omega
  | ⟨1, _⟩ => show win1_0.index t (1 : Fin 2) * 128 + 1 * q.val = q.val; rw [e1]; omega

abbrev stats1_last : Fin cfg1.N := ⟨48, by rw [show cfg1.N = 49 from N_1]; decide⟩

-- The two rows after the last point: the column sums of the input and of its squares.
theorem stats1_end (c : Dev nD) :
    ((outsAt1 V c 48 stats1_last.isLt).1 : Spec.Mat 1 128) = Spec.colSum (V c main_v30)
    ∧ ((outsAt1 V c 48 stats1_last.isLt).2 : Spec.Mat 1 128) = Spec.colSumSq (V c main_v30) :=
  acc_end (V c main_v30) (fun t => iblk1 V c 0 t) (outsAt1 V c) (stats1_blk_apply V c)
    (fun h => by
      rw [outsAt1_A V c ⟨0, h⟩ rfl]
      exact stats1_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (iblk1 V c 0 ⟨0, h⟩) ((hcond1_0 ⟨0, h⟩).mpr rfl))
    (fun n h => by
      have h49 : n + 1 < 49 := lt_of_lt_of_eq h (show cfg1.N = 49 from N_1)
      have hB : ¬(⟨n + 1, h⟩ : Fin cfg1.N).val % 49 = 0 := by dsimp only; omega
      rw [outsAt1_B V c ⟨n + 1, h⟩ hB]
      exact stats1_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (iblk1 V c 0 ⟨n + 1, h⟩) (fun hh => hB ((hcond1_0 ⟨n + 1, h⟩).mp hh))
        (outsAt1 V c n (Nat.lt_of_succ_lt h)).1 (outsAt1 V c n (Nat.lt_of_succ_lt h)).2)
    stats1_last.isLt

theorem stats1_flushed1 (c : Dev nD) (t : Fin cfg1.N) (hf : (cfg1.win 1).flush t = true) :
    (dat1 (F := Ideal) V c).flushed 1 t = ((cfg1.win 1).blk t).view.read (Elt Ideal) (Spec.colSum (V c main_v30)) := by
  have hN : cfg1.N = 49 := N_1
  have h48 : t.val = 48 := by have := (flush1_1 t).mp hf; have := t.isLt; omega
  obtain rfl : t = stats1_last := Fin.ext h48
  show (cfg1.win 1).cut (grid1.coords stats1_last) ((dat1 (F := Ideal) V c).after 1 stats1_last) = _
  rw [after1_1, (stats1_end V c).1]
  have hz' : (fun a => win1_1.index stats1_last a * main_v31_0.ty.shape.size a) = fun _ => 0 := funext fun a => by fin_cases a <;> decide
  exact (Memref.read_access_unit_zero (Elt Ideal) main_v31_0 hz' (fun a => by rw [congrFun hz' a]; simp) (Spec.colSum (V c main_v30))).symm

theorem stats1_flushed2 (c : Dev nD) (t : Fin cfg1.N) (hf : (cfg1.win 2).flush t = true) :
    (dat1 (F := Ideal) V c).flushed 2 t = ((cfg1.win 2).blk t).view.read (Elt Ideal) (Spec.colSumSq (V c main_v30)) := by
  have hN : cfg1.N = 49 := N_1
  have h48 : t.val = 48 := by have := (flush1_2 t).mp hf; have := t.isLt; omega
  obtain rfl : t = stats1_last := Fin.ext h48
  show (cfg1.win 2).cut (grid1.coords stats1_last) ((dat1 (F := Ideal) V c).after 2 stats1_last) = _
  rw [after1_2, (stats1_end V c).2]
  have hz' : (fun a => win1_2.index stats1_last a * main_v31_1.ty.shape.size a) = fun _ => 0 := funext fun a => by fin_cases a <;> decide
  exact (Memref.read_access_unit_zero (Elt Ideal) main_v31_1 hz' (fun a => by rw [congrFun hz' a]; simp) (Spec.colSumSq (V c main_v30))).symm

theorem stats1_sum (c : Dev nD) : ((dat1 (F := Ideal) V c).arrAt 1 cfg1.N : Spec.Mat 1 128) = Spec.colSum (V c main_v30) :=
  (dat1 (F := Ideal) V c).arrAt_eq_of_cover 1 (Spec.colSum (V c main_v30)) (stats1_flushed1 V c) fun i =>
    ⟨stats1_last, (flush1_1 stats1_last).mpr rfl, by
      show i ∈ ((View.whole main_v31_0).slice (win1_1.rect stats1_last)).set
      rw [View.set_slice_whole, Rect.mem_set_unit]
      exact mem_whole (S := S1x128) i (fun a => win1_1.index stats1_last a * win1_1.size a)
        (fun a => win1_1.xsize (grid1.coords stats1_last) a) (by decide +kernel) (by decide +kernel)⟩

theorem stats1_sumsq (c : Dev nD) : ((dat1 (F := Ideal) V c).arrAt 2 cfg1.N : Spec.Mat 1 128) = Spec.colSumSq (V c main_v30) :=
  (dat1 (F := Ideal) V c).arrAt_eq_of_cover 2 (Spec.colSumSq (V c main_v30)) (stats1_flushed2 V c) fun i =>
    ⟨stats1_last, (flush1_2 stats1_last).mpr rfl, by
      show i ∈ ((View.whole main_v31_1).slice (win1_2.rect stats1_last)).set
      rw [View.set_slice_whole, Rect.mem_set_unit]
      exact mem_whole (S := S1x128) i (fun a => win1_2.index stats1_last a * win1_2.size a)
        (fun a => win1_2.xsize (grid1.coords stats1_last) a) (by decide +kernel) (by decide +kernel)⟩

end Cert.KernelIdeal.Val

end
-- ==== Proof.ApplyCommon.lean ====
import proofs.«415927_j1254130450626_1_alg».proof.Proof.Gen.KernelIdeal.Frame
import proofs.«415927_j1254130450626_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen
open Idealize.ShloMosaic.ValueIdx

abbrev ApplyIdx (i0 i1 i2 i3 : Fin 2 → Nat) (t : Nat) : Prop :=
  i0 0 = i3 0 ∧ i0 1 = i3 1 ∧ i1 0 = 0 ∧ i1 1 = 0 ∧ i2 0 = 0 ∧ i2 1 = 0 ∧ i3 0 = t ∧ i3 1 = 0

theorem zero2 : (![0, 0] : Fin 2 → Nat) = fun _ => 0 := funext fun a => by fin_cases a <;> rfl

theorem affine_pay (x0 : FVec Ideal S2048x128 .f32) (x1 x2 : FVec Ideal S1x128 .f32) (p : Fin 2048) (q : Fin 128) :
    k2_pay1 (F := Ideal) x0 x1 x2 (ix2 p q) = x0 (ix2 p q) * x1 (ix2 (0 : Fin 1) q) + x2 (ix2 (0 : Fin 1) q) := by
  unfold k2_pay1
  show shapeCast S2048x128 x0 _ (ix2 p q) * broadcastTo S2048x128 (shapeCast S1x128 x1 _) _ (ix2 p q)
      + broadcastTo S2048x128 (shapeCast S1x128 x2 _) _ (ix2 p q) = _
  rw [shapeCast_self, shapeCast_self, shapeCast_self, broadcastTo_1b_ab_apply, broadcastTo_1b_ab_apply]

/-- A single piece over the whole block is its payload, whichever payload f it is. -/
theorem out_eq (f : Vec Ideal S2048x128 .f32 → Vec Ideal S1x128 .f32 → Vec Ideal S1x128 .f32 → FVec Ideal S2048x128 .f32)
    (x0 : Vec Ideal S2048x128 .f32) (x1 x2 : Vec Ideal S1x128 .f32) :
    (View.canon [⟨r2_0, f (View.ld x0 r2_0) (View.ld x1 r2_1) (View.ld x2 r2_1)⟩] : Vec Ideal S2048x128 .f32) = f x0 x1 x2 := by
  rw [View.canon_unit_zero zero2, View.ld_unit_zero zero2, View.ld_unit_zero zero2, View.ld_unit_zero zero2]

section
variable (X : Spec.Mat 100352 128) (A B : Spec.Mat 1 128)
  {e0 e3 : S2048x128.Idx → S100352x128.Idx} {e1 e2 : S1x128.Idx → S1x128.Idx} {i0 i1 i2 i3 : Fin 2 → Nat} {t : Nat}
  (hi : ApplyIdx i0 i1 i2 i3 t)
  (h0 : ∀ y a, (e0 y a : Nat) = i0 a * S2048x128.size a + y a) (h1 : ∀ y a, (e1 y a : Nat) = i1 a * S1x128.size a + y a)
  (h2 : ∀ y a, (e2 y a : Nat) = i2 a * S1x128.size a + y a) (h3 : ∀ y a, (e3 y a : Nat) = i3 a * S2048x128.size a + y a)
include hi h0 h1 h2 h3

/-- The input block sits where the output block does, and each row is read at the output's column. -/
theorem affine_blk (y : S2048x128.Idx) :
    k2_pay1 (F := Ideal) (fun y => X (e0 y)) (fun y => A (e1 y)) (fun y => B (e2 y)) y = Spec.affine X A B (e3 y) := by
  obtain ⟨e00, e01, e10, e11, e20, e21, -, e31⟩ := hi
  obtain ⟨p, q, rfl⟩ : ∃ (p : Fin 2048) (q : Fin 128), y = ix2 p q := ⟨y 0, y 1, eq_ix2 y⟩
  have a00 : (e0 (ix2 p q) 0 : Nat) = i0 0 * 2048 + p := h0 _ 0
  have a01 : (e0 (ix2 p q) 1 : Nat) = i0 1 * 128 + q := h0 _ 1
  have a30 : (e3 (ix2 p q) 0 : Nat) = i3 0 * 2048 + p := h3 _ 0
  have a31 : (e3 (ix2 p q) 1 : Nat) = i3 1 * 128 + q := h3 _ 1
  have a10 : (e1 (ix2 0 q) 0 : Nat) = i1 0 * 1 + 0 := h1 _ 0
  have a11 : (e1 (ix2 0 q) 1 : Nat) = i1 1 * 128 + q := h1 _ 1
  have a20 : (e2 (ix2 0 q) 0 : Nat) = i2 0 * 1 + 0 := h2 _ 0
  have a21 : (e2 (ix2 0 q) 1 : Nat) = i2 1 * 128 + q := h2 _ 1
  have E0 : e0 (ix2 p q) = e3 (ix2 p q) := Shape.idx_ext₂ (by omega) (by omega)
  have E1 : e1 (ix2 0 q) = ix2 0 (Spec.c2 (e3 (ix2 p q))) :=
    Shape.idx_ext₂ (by show (e1 (ix2 0 q) 0 : Nat) = 0; omega) (by show (e1 (ix2 0 q) 1 : Nat) = (e3 (ix2 p q) 1 : Nat); omega)
  have E2 : e2 (ix2 0 q) = ix2 0 (Spec.c2 (e3 (ix2 p q))) :=
    Shape.idx_ext₂ (by show (e2 (ix2 0 q) 0 : Nat) = 0; omega) (by show (e2 (ix2 0 q) 1 : Nat) = (e3 (ix2 p q) 1 : Nat); omega)
  refine (affine_pay _ _ _ p q).trans ?_
  show X (e0 _) * A (e1 _) + B (e2 _) = _
  rw [E0, E1, E2]
  rfl

theorem relu_blk (y : S2048x128.Idx) :
    k6_pay1 (F := Ideal) (fun y => X (e0 y)) (fun y => A (e1 y)) (fun y => B (e2 y)) y = Spec.affineRelu X A B (e3 y) := by
  show max (k2_pay1 (F := Ideal) (fun y => X (e0 y)) (fun y => A (e1 y)) (fun y => B (e2 y)) y)
    (Ideal.ofBits .f32 0x00000000#32) = _
  rw [affine_blk X A B hi h0 h1 h2 h3, Ideal.ofBits_zero_f32]
  rfl

end

/-- Row r of the output is row r % 2048 of block r / 2048: the 49 blocks cover the array. -/
theorem rows_cover {e3 : Fin 49 → S2048x128.Idx → S100352x128.Idx} {i3 : Fin 49 → Fin 2 → Nat}
    (h3 : ∀ t y a, (e3 t y a : Nat) = i3 t a * S2048x128.size a + y a) (hi : ∀ t : Fin 49, i3 t 0 = t.val ∧ i3 t 1 = 0)
    (i : S100352x128.Idx) : ∃ t y, e3 t y = i := by
  have hi0 : (i 0).val < 100352 := (i 0).isLt
  have hi1 : (i 1).val < 128 := (i 1).isLt
  obtain ⟨t, ht⟩ : ∃ t : Fin 49, t.val = (i 0).val / 2048 := ⟨⟨(i 0).val / 2048, by omega⟩, rfl⟩
  obtain ⟨p, hp⟩ : ∃ p : Fin 2048, p.val = (i 0).val % 2048 := ⟨⟨(i 0).val % 2048, by omega⟩, rfl⟩
  obtain ⟨e30, e31⟩ := hi t
  have a0 : (e3 t (ix2 p ⟨(i 1).val, hi1⟩) 0 : Nat) = i3 t 0 * 2048 + p := h3 t _ 0
  have a1 : (e3 t (ix2 p ⟨(i 1).val, hi1⟩) 1 : Nat) = i3 t 1 * 128 + (i 1).val := h3 t _ 1
  exact ⟨t, ix2 p ⟨(i 1).val, hi1⟩, Shape.idx_ext₂ (by omega) (by omega)⟩

end Cert.KernelIdeal.Val

end
-- ==== Proof.RegApply2.lean ====
import proofs.«415927_j1254130450626_1_alg».proof.Proof.ApplyCommon

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem apply2_idx : ∀ t : Fin cfg2.N,
    ApplyIdx (win2_0.index t) (win2_1.index t) (win2_2.index t) (win2_3.index t) t.val :=
  (by decide +kernel : ∀ t : Fin grid2.N, _)

theorem apply2_value (c : Dev nD) : ((dat2 (F := Ideal) V c).arrAt 3 cfg2.N : Spec.Mat 100352 128)
    = Spec.affine (V c main_v30) (V c main_v49) (V c main_v52) := by
  refine (dat2 (F := Ideal) V c).arrAt_eq_of_cover 3 _ (fun t _ => ?_) fun i => ?_
  · show (cfg2.win 3).cut (grid2.coords t) ((dat2 (F := Ideal) V c).after 3 t) = _
    rw [after2_3]
    exact (out_eq k2_pay1 (iblk2 V c 0 t) (iblk2 V c 1 t) (iblk2 V c 2 t)).trans
      (funext (affine_blk (V c main_v30) (V c main_v49) (V c main_v52) (apply2_idx t) (win2_0.rect_emb_val t)
        (win2_1.rect_emb_val t) (win2_2.rect_emb_val t) (win2_3.rect_emb_val t)))
  · obtain ⟨t, y, rfl⟩ := rows_cover (fun t => win2_3.rect_emb_val t) (fun t => (apply2_idx t).2.2.2.2.2.2) i
    exact ⟨t, flush2_3 t, View.emb_mem_set _ y⟩

end Cert.KernelIdeal.Val

end
-- ==== Proof.KLayer0.lean ====
import proofs.«415927_j1254130450626_1_alg».proof.Proof.LayerCommon
import proofs.«415927_j1254130450626_1_alg».proof.Proof.RegStats1
import proofs.«415927_j1254130450626_1_alg».proof.Proof.RegApply2

set_option maxRecDepth 16384

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (Y : Valuation τ sig (Elt Ideal))

theorem l0_zero : after hostOps1 Y main_c_5 = constantI S_ 32 0#32 := by
  after_results
theorem l0_pad (hz : Y main_c_5 = constantI S_ 32 0#32) : after hostOps1_1 Y main_v30 = padT (Y main_v23) := by
  after_results; rw [hz]; rfl
set_option maxHeartbeats 1000000 in
theorem l0_a : after hostOps2 Y main_v49 = aT (Y main_v31_0) (Y main_v31_1) (Y main_v25) (Y main_v29) := by
  after_results_simp
  rfl
set_option maxHeartbeats 1000000 in
theorem l0_b : after hostOps2 Y main_v52 = bT (Y main_v31_0) (Y main_v31_1) (Y main_v25) (Y main_v27) (Y main_v29) := by
  after_results_simp
  rfl
theorem l0_out : after hostOps3 Y main_v54 = sliceT (Y main_v53) := by
  after_results; rfl

/-- No stretch between the slicing of the three parameter rows and the statistics kernel's exit writes them. -/
theorem l0_par (c : Dev nD) : W10 m ρ c main_v25 = rowT0 (m ((c : Thread nD τ).loc main_arg4))
    ∧ W10 m ρ c main_v27 = rowT0 (m ((c : Thread nD τ).loc main_arg5))
    ∧ W10 m ρ c main_v29 = rowT0 (m ((c : Thread nD τ).loc main_arg6)) := by
  rw [← W7_arg4 m ρ c, ← W7_arg5 m ρ c, ← W7_arg6 m ρ c]
  refine ⟨?_, ?_, ?_⟩ <;>
    refine (W10_of_ne m ρ c _ (by decide)).trans ((after_of_writes_sub _ _ hostOps1_1_writes (by decide)).trans ?_) <;>
    after_results <;> rfl

theorem K_layer0 (c : Dev nD) : W13 (F := Ideal) m ρ c (Proc.devRef .tc main_v54)
    = klayer (W8 (F := Ideal) m ρ c (Proc.devRef .tc main_v23)) (rowT0 (m ((c : Thread nD τ).loc main_arg4)))
        (rowT0 (m ((c : Thread nD τ).loc main_arg5))) (rowT0 (m ((c : Thread nD τ).loc main_arg6))) :=
  layer_eq Spec.affine (l0_out (W12 m ρ c)) ((W12_arr m ρ c 3).trans (apply2_value (V11 m ρ) c))
    (after_of_writes_sub _ _ hostOps2_writes (by decide)) (l0_a (W10 m ρ c)) (l0_b (W10 m ρ c)) (l0_par m ρ c)
    ((W10_arr m ρ c 1).trans (stats1_sum (V9 m ρ) c)) ((W10_arr m ρ c 2).trans (stats1_sumsq (V9 m ρ) c))
    ((W10_arr m ρ c 0).trans ((dat1 (V9 m ρ) c).arrAt_in 0 rfl cfg1.N)) (l0_pad _ (l0_zero (W7 m ρ c)))

end Cert.KernelIdeal.Val
-- ==== Proof.RegStats3.lean ====
import proofs.«415927_j1254130450626_1_alg».proof.Proof.Gen.KernelIdeal.Frame
import proofs.«415927_j1254130450626_1_alg».proof.Proof.StatsCommon

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

section Pieces
variable {F : FTy → Type} [FloatOps F] (c : Dev nD) (i : grid3.Coords) (a1 : Memref sig .tc .vmem S2048x128 .f32) (h1 : a1.IsWhole)
  (a2 : Memref sig .tc .vmem S1x128 .f32) (h2 : a2.IsWhole) (a3 : Memref sig .tc .vmem S1x128 .f32) (h3 : a3.IsWhole)
  (x : Vec F S2048x128 .f32)

theorem stats3_B (hc : ¬cond3_0 i) (xo1 xo2 : Vec F S1x128 .f32) :
    (out3_B_1 c i a1 h1 a2 h2 a3 h3 hc x xo1 xo2, out3_B_2 c i a1 h1 a2 h2 a3 h3 hc x xo1 xo2)
      = (k3_pay4 x xo1, k3_pay5 x xo2) := by
  unfold out3_B_1 out3_B_2
  rw [View.read_writes_eq_canon _ _ _ (cover3_B_1 c i a1 h1 a2 h2 a3 h3 hc x xo1 xo2),
    View.read_writes_eq_canon _ _ _ (cover3_B_2 c i a1 h1 a2 h2 a3 h3 hc x xo1 xo2)]
  unfold kernelRun3_B
  dsimp only
  sl_unfold_words
  simp only [View.canon_unit_zero (S := S1x128) hz2, View.readAt_eq_ld, h1.read_unread, h2.read_unread, h3.read_unread,
    View.ld_unit_zero (S := S2048x128) hz2, View.ld_unit_zero (S := S1x128) hz2]

theorem stats3_A (hc : cond3_0 i) :
    (out3_A_1 c i a1 h1 a2 h2 a3 h3 hc x, out3_A_2 c i a1 h1 a2 h2 a3 h3 hc x)
      = (k3_pay4 x (k3_pay2 (F := F)), k3_pay5 x (k3_pay3 (F := F))) := by
  unfold out3_A_1 out3_A_2
  rw [View.read_writes_eq_canon _ _ _ (cover3_A_1 c i a1 h1 a2 h2 a3 h3 hc x),
    View.read_writes_eq_canon _ _ _ (cover3_A_2 c i a1 h1 a2 h2 a3 h3 hc x)]
  unfold kernelRun3_A
  dsimp only
  sl_unfold_words
  simp only [View.canon_cons_unit_zero (S := S1x128) hz2, View.readCov_unit_zero (S := S1x128) _ hz2, View.readAt_eq_ld,
    h1.read_unread, View.ld_unit_zero (S := S2048x128) hz2]

end Pieces

theorem stats3_idx0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

-- Entry (r, q) of the block at point t is entry (2048·t + r, q) of the input.
theorem stats3_blk_apply (c : Dev nD) (t : Fin cfg3.N) (r : Fin 2048) (q : Fin 128) :
    (iblk3 V c 0 t : FVec Ideal S2048x128 .f32) (ix2 r q) = row (V c main_v74) (2048 * t.val + r.val) q := by
  obtain ⟨e0, e1⟩ := stats3_idx0 t
  have hN : t.val < 49 := lt_of_lt_of_eq t.isLt (show cfg3.N = 49 from N_3)
  have hr : r.val < 2048 := r.isLt
  have hp : 2048 * t.val + r.val < 100352 := by omega
  refine Eq.trans ?_ (row_of_lt (V c main_v74) ⟨2048 * t.val + r.val, hp⟩ q).symm
  show iblk3 V c 0 t (ix2 r q) = V c main_v74 _
  unfold iblk3
  rw [View.read_apply]
  show V c main_v74 _ = V c main_v74 _
  congr 1
  funext a
  apply Fin.ext
  match a with
  | ⟨0, _⟩ => show win3_0.index t (0 : Fin 2) * 2048 + 1 * r.val = 2048 * t.val + r.val; rw [e0]; omega
  | ⟨1, _⟩ => show win3_0.index t (1 : Fin 2) * 128 + 1 * q.val = q.val; rw [e1]; omega

abbrev stats3_last : Fin cfg3.N := ⟨48, by rw [show cfg3.N = 49 from N_3]; decide⟩

-- The two rows after the last point: the column sums of the input and of its squares.
theorem stats3_end (c : Dev nD) :
    ((outsAt3 V c 48 stats3_last.isLt).1 : Spec.Mat 1 128) = Spec.colSum (V c main_v74)
    ∧ ((outsAt3 V c 48 stats3_last.isLt).2 : Spec.Mat 1 128) = Spec.colSumSq (V c main_v74) :=
  acc_end (V c main_v74) (fun t => iblk3 V c 0 t) (outsAt3 V c) (stats3_blk_apply V c)
    (fun h => by
      rw [outsAt3_A V c ⟨0, h⟩ rfl]
      exact stats3_A (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (iblk3 V c 0 ⟨0, h⟩) ((hcond3_0 ⟨0, h⟩).mpr rfl))
    (fun n h => by
      have h49 : n + 1 < 49 := lt_of_lt_of_eq h (show cfg3.N = 49 from N_3)
      have hB : ¬(⟨n + 1, h⟩ : Fin cfg3.N).val % 49 = 0 := by dsimp only; omega
      rw [outsAt3_B V c ⟨n + 1, h⟩ hB]
      exact stats3_B (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (iblk3 V c 0 ⟨n + 1, h⟩) (fun hh => hB ((hcond3_0 ⟨n + 1, h⟩).mp hh))
        (outsAt3 V c n (Nat.lt_of_succ_lt h)).1 (outsAt3 V c n (Nat.lt_of_succ_lt h)).2)
    stats3_last.isLt

theorem stats3_flushed1 (c : Dev nD) (t : Fin cfg3.N) (hf : (cfg3.win 1).flush t = true) :
    (dat3 (F := Ideal) V c).flushed 1 t = ((cfg3.win 1).blk t).view.read (Elt Ideal) (Spec.colSum (V c main_v74)) := by
  have hN : cfg3.N = 49 := N_3
  have h48 : t.val = 48 := by have := (flush3_1 t).mp hf; have := t.isLt; omega
  obtain rfl : t = stats3_last := Fin.ext h48
  show (cfg3.win 1).cut (grid3.coords stats3_last) ((dat3 (F := Ideal) V c).after 1 stats3_last) = _
  rw [after3_1, (stats3_end V c).1]
  have hz' : (fun a => win3_1.index stats3_last a * main_v75_0.ty.shape.size a) = fun _ => 0 := funext fun a => by fin_cases a <;> decide
  exact (Memref.read_access_unit_zero (Elt Ideal) main_v75_0 hz' (fun a => by rw [congrFun hz' a]; simp) (Spec.colSum (V c main_v74))).symm

theorem stats3_flushed2 (c : Dev nD) (t : Fin cfg3.N) (hf : (cfg3.win 2).flush t = true) :
    (dat3 (F := Ideal) V c).flushed 2 t = ((cfg3.win 2).blk t).view.read (Elt Ideal) (Spec.colSumSq (V c main_v74)) := by
  have hN : cfg3.N = 49 := N_3
  have h48 : t.val = 48 := by have := (flush3_2 t).mp hf; have := t.isLt; omega
  obtain rfl : t = stats3_last := Fin.ext h48
  show (cfg3.win 2).cut (grid3.coords stats3_last) ((dat3 (F := Ideal) V c).after 2 stats3_last) = _
  rw [after3_2, (stats3_end V c).2]
  have hz' : (fun a => win3_2.index stats3_last a * main_v75_1.ty.shape.size a) = fun _ => 0 := funext fun a => by fin_cases a <;> decide
  exact (Memref.read_access_unit_zero (Elt Ideal) main_v75_1 hz' (fun a => by rw [congrFun hz' a]; simp) (Spec.colSumSq (V c main_v74))).symm

theorem stats3_sum (c : Dev nD) : ((dat3 (F := Ideal) V c).arrAt 1 cfg3.N : Spec.Mat 1 128) = Spec.colSum (V c main_v74) :=
  (dat3 (F := Ideal) V c).arrAt_eq_of_cover 1 (Spec.colSum (V c main_v74)) (stats3_flushed1 V c) fun i =>
    ⟨stats3_last, (flush3_1 stats3_last).mpr rfl, by
      show i ∈ ((View.whole main_v75_0).slice (win3_1.rect stats3_last)).set
      rw [View.set_slice_whole, Rect.mem_set_unit]
      exact mem_whole (S := S1x128) i (fun a => win3_1.index stats3_last a * win3_1.size a)
        (fun a => win3_1.xsize (grid3.coords stats3_last) a) (by decide +kernel) (by decide +kernel)⟩

theorem stats3_sumsq (c : Dev nD) : ((dat3 (F := Ideal) V c).arrAt 2 cfg3.N : Spec.Mat 1 128) = Spec.colSumSq (V c main_v74) :=
  (dat3 (F := Ideal) V c).arrAt_eq_of_cover 2 (Spec.colSumSq (V c main_v74)) (stats3_flushed2 V c) fun i =>
    ⟨stats3_last, (flush3_2 stats3_last).mpr rfl, by
      show i ∈ ((View.whole main_v75_1).slice (win3_2.rect stats3_last)).set
      rw [View.set_slice_whole, Rect.mem_set_unit]
      exact mem_whole (S := S1x128) i (fun a => win3_2.index stats3_last a * win3_2.size a)
        (fun a => win3_2.xsize (grid3.coords stats3_last) a) (by decide +kernel) (by decide +kernel)⟩

end Cert.KernelIdeal.Val

end
-- ==== Proof.RegApply4.lean ====
import proofs.«415927_j1254130450626_1_alg».proof.Proof.ApplyCommon

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem apply4_idx : ∀ t : Fin cfg4.N,
    ApplyIdx (win4_0.index t) (win4_1.index t) (win4_2.index t) (win4_3.index t) t.val :=
  (by decide +kernel : ∀ t : Fin grid4.N, _)

theorem apply4_value (c : Dev nD) : ((dat4 (F := Ideal) V c).arrAt 3 cfg4.N : Spec.Mat 100352 128)
    = Spec.affine (V c main_v74) (V c main_v93) (V c main_v96) := by
  refine (dat4 (F := Ideal) V c).arrAt_eq_of_cover 3 _ (fun t _ => ?_) fun i => ?_
  · show (cfg4.win 3).cut (grid4.coords t) ((dat4 (F := Ideal) V c).after 3 t) = _
    rw [after4_3]
    exact (out_eq k4_pay1 (iblk4 V c 0 t) (iblk4 V c 1 t) (iblk4 V c 2 t)).trans
      (funext (affine_blk (V c main_v74) (V c main_v93) (V c main_v96) (apply4_idx t) (win4_0.rect_emb_val t)
        (win4_1.rect_emb_val t) (win4_2.rect_emb_val t) (win4_3.rect_emb_val t)))
  · obtain ⟨t, y, rfl⟩ := rows_cover (fun t => win4_3.rect_emb_val t) (fun t => (apply4_idx t).2.2.2.2.2.2) i
    exact ⟨t, flush4_3 t, View.emb_mem_set _ y⟩

end Cert.KernelIdeal.Val

end
-- ==== Proof.KLayer1.lean ====
import proofs.«415927_j1254130450626_1_alg».proof.Proof.LayerCommon
import proofs.«415927_j1254130450626_1_alg».proof.Proof.RegStats3
import proofs.«415927_j1254130450626_1_alg».proof.Proof.RegApply4

set_option maxRecDepth 16384

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (Y : Valuation τ sig (Elt Ideal))

theorem l1_zero : after hostOps3 Y main_c_13 = constantI S_ 32 0#32 := by
  after_results
theorem l1_pad (hz : Y main_c_13 = constantI S_ 32 0#32) : after hostOps3_1 Y main_v74 = padT (Y main_v67) := by
  after_results; rw [hz]; rfl
set_option maxHeartbeats 1000000 in
theorem l1_a : after hostOps4 Y main_v93 = aT (Y main_v75_0) (Y main_v75_1) (Y main_v69) (Y main_v73) := by
  after_results_simp
  rfl
set_option maxHeartbeats 1000000 in
theorem l1_b : after hostOps4 Y main_v96 = bT (Y main_v75_0) (Y main_v75_1) (Y main_v69) (Y main_v71) (Y main_v73) := by
  after_results_simp
  rfl
theorem l1_out : after hostOps5 Y main_v98 = sliceT (Y main_v97) := by
  after_results; rfl

/-- No stretch between the slicing of the three parameter rows and the statistics kernel's exit writes them. -/
theorem l1_par (c : Dev nD) : W15 m ρ c main_v69 = rowT1 (m ((c : Thread nD τ).loc main_arg4))
    ∧ W15 m ρ c main_v71 = rowT1 (m ((c : Thread nD τ).loc main_arg5))
    ∧ W15 m ρ c main_v73 = rowT1 (m ((c : Thread nD τ).loc main_arg6)) := by
  rw [← W12_arg4 m ρ c, ← W12_arg5 m ρ c, ← W12_arg6 m ρ c]
  refine ⟨?_, ?_, ?_⟩ <;>
    refine (W15_of_ne m ρ c _ (by decide)).trans ((after_of_writes_sub _ _ hostOps3_1_writes (by decide)).trans ?_) <;>
    after_results <;> rfl

theorem K_layer1 (c : Dev nD) : W18 (F := Ideal) m ρ c (Proc.devRef .tc main_v98)
    = klayer (W13 (F := Ideal) m ρ c (Proc.devRef .tc main_v67)) (rowT1 (m ((c : Thread nD τ).loc main_arg4)))
        (rowT1 (m ((c : Thread nD τ).loc main_arg5))) (rowT1 (m ((c : Thread nD τ).loc main_arg6))) :=
  layer_eq Spec.affine (l1_out (W17 m ρ c)) ((W17_arr m ρ c 3).trans (apply4_value (V16 m ρ) c))
    (after_of_writes_sub _ _ hostOps4_writes (by decide)) (l1_a (W15 m ρ c)) (l1_b (W15 m ρ c)) (l1_par m ρ c)
    ((W15_arr m ρ c 1).trans (stats3_sum (V14 m ρ) c)) ((W15_arr m ρ c 2).trans (stats3_sumsq (V14 m ρ) c))
    ((W15_arr m ρ c 0).trans ((dat3 (V14 m ρ) c).arrAt_in 0 rfl cfg3.N)) (l1_pad _ (l1_zero (W12 m ρ c)))

end Cert.KernelIdeal.Val
-- ==== Proof.RegStats5.lean ====
import proofs.«415927_j1254130450626_1_alg».proof.Proof.Gen.KernelIdeal.Frame
import proofs.«415927_j1254130450626_1_alg».proof.Proof.StatsCommon

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

section Pieces
variable {F : FTy → Type} [FloatOps F] (c : Dev nD) (i : grid5.Coords) (a1 : Memref sig .tc .vmem S2048x128 .f32) (h1 : a1.IsWhole)
  (a2 : Memref sig .tc .vmem S1x128 .f32) (h2 : a2.IsWhole) (a3 : Memref sig .tc .vmem S1x128 .f32) (h3 : a3.IsWhole)
  (x : Vec F S2048x128 .f32)

theorem stats5_B (hc : ¬cond5_0 i) (xo1 xo2 : Vec F S1x128 .f32) :
    (out5_B_1 c i a1 h1 a2 h2 a3 h3 hc x xo1 xo2, out5_B_2 c i a1 h1 a2 h2 a3 h3 hc x xo1 xo2)
      = (k5_pay4 x xo1, k5_pay5 x xo2) := by
  unfold out5_B_1 out5_B_2
  rw [View.read_writes_eq_canon _ _ _ (cover5_B_1 c i a1 h1 a2 h2 a3 h3 hc x xo1 xo2),
    View.read_writes_eq_canon _ _ _ (cover5_B_2 c i a1 h1 a2 h2 a3 h3 hc x xo1 xo2)]
  unfold kernelRun5_B
  dsimp only
  sl_unfold_words
  simp only [View.canon_unit_zero (S := S1x128) hz2, View.readAt_eq_ld, h1.read_unread, h2.read_unread, h3.read_unread,
    View.ld_unit_zero (S := S2048x128) hz2, View.ld_unit_zero (S := S1x128) hz2]

theorem stats5_A (hc : cond5_0 i) :
    (out5_A_1 c i a1 h1 a2 h2 a3 h3 hc x, out5_A_2 c i a1 h1 a2 h2 a3 h3 hc x)
      = (k5_pay4 x (k5_pay2 (F := F)), k5_pay5 x (k5_pay3 (F := F))) := by
  unfold out5_A_1 out5_A_2
  rw [View.read_writes_eq_canon _ _ _ (cover5_A_1 c i a1 h1 a2 h2 a3 h3 hc x),
    View.read_writes_eq_canon _ _ _ (cover5_A_2 c i a1 h1 a2 h2 a3 h3 hc x)]
  unfold kernelRun5_A
  dsimp only
  sl_unfold_words
  simp only [View.canon_cons_unit_zero (S := S1x128) hz2, View.readCov_unit_zero (S := S1x128) _ hz2, View.readAt_eq_ld,
    h1.read_unread, View.ld_unit_zero (S := S2048x128) hz2]

end Pieces

theorem stats5_idx0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)

-- Entry (r, q) of the block at point t is entry (2048·t + r, q) of the input.
theorem stats5_blk_apply (c : Dev nD) (t : Fin cfg5.N) (r : Fin 2048) (q : Fin 128) :
    (iblk5 V c 0 t : FVec Ideal S2048x128 .f32) (ix2 r q) = row (V c main_v105) (2048 * t.val + r.val) q := by
  obtain ⟨e0, e1⟩ := stats5_idx0 t
  have hN : t.val < 49 := lt_of_lt_of_eq t.isLt (show cfg5.N = 49 from N_5)
  have hr : r.val < 2048 := r.isLt
  have hp : 2048 * t.val + r.val < 100352 := by omega
  refine Eq.trans ?_ (row_of_lt (V c main_v105) ⟨2048 * t.val + r.val, hp⟩ q).symm
  show iblk5 V c 0 t (ix2 r q) = V c main_v105 _
  unfold iblk5
  rw [View.read_apply]
  show V c main_v105 _ = V c main_v105 _
  congr 1
  funext a
  apply Fin.ext
  match a with
  | ⟨0, _⟩ => show win5_0.index t (0 : Fin 2) * 2048 + 1 * r.val = 2048 * t.val + r.val; rw [e0]; omega
  | ⟨1, _⟩ => show win5_0.index t (1 : Fin 2) * 128 + 1 * q.val = q.val; rw [e1]; omega

abbrev stats5_last : Fin cfg5.N := ⟨48, by rw [show cfg5.N = 49 from N_5]; decide⟩

-- The two rows after the last point: the column sums of the input and of its squares.
theorem stats5_end (c : Dev nD) :
    ((outsAt5 V c 48 stats5_last.isLt).1 : Spec.Mat 1 128) = Spec.colSum (V c main_v105)
    ∧ ((outsAt5 V c 48 stats5_last.isLt).2 : Spec.Mat 1 128) = Spec.colSumSq (V c main_v105) :=
  acc_end (V c main_v105) (fun t => iblk5 V c 0 t) (outsAt5 V c) (stats5_blk_apply V c)
    (fun h => by
      rw [outsAt5_A V c ⟨0, h⟩ rfl]
      exact stats5_A (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (iblk5 V c 0 ⟨0, h⟩) ((hcond5_0 ⟨0, h⟩).mpr rfl))
    (fun n h => by
      have h49 : n + 1 < 49 := lt_of_lt_of_eq h (show cfg5.N = 49 from N_5)
      have hB : ¬(⟨n + 1, h⟩ : Fin cfg5.N).val % 49 = 0 := by dsimp only; omega
      rw [outsAt5_B V c ⟨n + 1, h⟩ hB]
      exact stats5_B (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (iblk5 V c 0 ⟨n + 1, h⟩) (fun hh => hB ((hcond5_0 ⟨n + 1, h⟩).mp hh))
        (outsAt5 V c n (Nat.lt_of_succ_lt h)).1 (outsAt5 V c n (Nat.lt_of_succ_lt h)).2)
    stats5_last.isLt

theorem stats5_flushed1 (c : Dev nD) (t : Fin cfg5.N) (hf : (cfg5.win 1).flush t = true) :
    (dat5 (F := Ideal) V c).flushed 1 t = ((cfg5.win 1).blk t).view.read (Elt Ideal) (Spec.colSum (V c main_v105)) := by
  have hN : cfg5.N = 49 := N_5
  have h48 : t.val = 48 := by have := (flush5_1 t).mp hf; have := t.isLt; omega
  obtain rfl : t = stats5_last := Fin.ext h48
  show (cfg5.win 1).cut (grid5.coords stats5_last) ((dat5 (F := Ideal) V c).after 1 stats5_last) = _
  rw [after5_1, (stats5_end V c).1]
  have hz' : (fun a => win5_1.index stats5_last a * main_v106_0.ty.shape.size a) = fun _ => 0 := funext fun a => by fin_cases a <;> decide
  exact (Memref.read_access_unit_zero (Elt Ideal) main_v106_0 hz' (fun a => by rw [congrFun hz' a]; simp) (Spec.colSum (V c main_v105))).symm

theorem stats5_flushed2 (c : Dev nD) (t : Fin cfg5.N) (hf : (cfg5.win 2).flush t = true) :
    (dat5 (F := Ideal) V c).flushed 2 t = ((cfg5.win 2).blk t).view.read (Elt Ideal) (Spec.colSumSq (V c main_v105)) := by
  have hN : cfg5.N = 49 := N_5
  have h48 : t.val = 48 := by have := (flush5_2 t).mp hf; have := t.isLt; omega
  obtain rfl : t = stats5_last := Fin.ext h48
  show (cfg5.win 2).cut (grid5.coords stats5_last) ((dat5 (F := Ideal) V c).after 2 stats5_last) = _
  rw [after5_2, (stats5_end V c).2]
  have hz' : (fun a => win5_2.index stats5_last a * main_v106_1.ty.shape.size a) = fun _ => 0 := funext fun a => by fin_cases a <;> decide
  exact (Memref.read_access_unit_zero (Elt Ideal) main_v106_1 hz' (fun a => by rw [congrFun hz' a]; simp) (Spec.colSumSq (V c main_v105))).symm

theorem stats5_sum (c : Dev nD) : ((dat5 (F := Ideal) V c).arrAt 1 cfg5.N : Spec.Mat 1 128) = Spec.colSum (V c main_v105) :=
  (dat5 (F := Ideal) V c).arrAt_eq_of_cover 1 (Spec.colSum (V c main_v105)) (stats5_flushed1 V c) fun i =>
    ⟨stats5_last, (flush5_1 stats5_last).mpr rfl, by
      show i ∈ ((View.whole main_v106_0).slice (win5_1.rect stats5_last)).set
      rw [View.set_slice_whole, Rect.mem_set_unit]
      exact mem_whole (S := S1x128) i (fun a => win5_1.index stats5_last a * win5_1.size a)
        (fun a => win5_1.xsize (grid5.coords stats5_last) a) (by decide +kernel) (by decide +kernel)⟩

theorem stats5_sumsq (c : Dev nD) : ((dat5 (F := Ideal) V c).arrAt 2 cfg5.N : Spec.Mat 1 128) = Spec.colSumSq (V c main_v105) :=
  (dat5 (F := Ideal) V c).arrAt_eq_of_cover 2 (Spec.colSumSq (V c main_v105)) (stats5_flushed2 V c) fun i =>
    ⟨stats5_last, (flush5_2 stats5_last).mpr rfl, by
      show i ∈ ((View.whole main_v106_1).slice (win5_2.rect stats5_last)).set
      rw [View.set_slice_whole, Rect.mem_set_unit]
      exact mem_whole (S := S1x128) i (fun a => win5_2.index stats5_last a * win5_2.size a)
        (fun a => win5_2.xsize (grid5.coords stats5_last) a) (by decide +kernel) (by decide +kernel)⟩

end Cert.KernelIdeal.Val

end
-- ==== Proof.RegApply6.lean ====
import proofs.«415927_j1254130450626_1_alg».proof.Proof.ApplyCommon

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem apply6_idx : ∀ t : Fin cfg6.N,
    ApplyIdx (win6_0.index t) (win6_1.index t) (win6_2.index t) (win6_3.index t) t.val :=
  (by decide +kernel : ∀ t : Fin grid6.N, _)

theorem apply6_value (c : Dev nD) : ((dat6 (F := Ideal) V c).arrAt 3 cfg6.N : Spec.Mat 100352 128)
    = Spec.affineRelu (V c main_v105) (V c main_v124) (V c main_v127) := by
  refine (dat6 (F := Ideal) V c).arrAt_eq_of_cover 3 _ (fun t _ => ?_) fun i => ?_
  · show (cfg6.win 3).cut (grid6.coords t) ((dat6 (F := Ideal) V c).after 3 t) = _
    rw [after6_3]
    exact (out_eq k6_pay1 (iblk6 V c 0 t) (iblk6 V c 1 t) (iblk6 V c 2 t)).trans
      (funext (relu_blk (V c main_v105) (V c main_v124) (V c main_v127) (apply6_idx t) (win6_0.rect_emb_val t)
        (win6_1.rect_emb_val t) (win6_2.rect_emb_val t) (win6_3.rect_emb_val t)))
  · obtain ⟨t, y, rfl⟩ := rows_cover (fun t => win6_3.rect_emb_val t) (fun t => (apply6_idx t).2.2.2.2.2.2) i
    exact ⟨t, flush6_3 t, View.emb_mem_set _ y⟩

end Cert.KernelIdeal.Val

end
-- ==== Proof.KLayer2.lean ====
import proofs.«415927_j1254130450626_1_alg».proof.Proof.LayerCommon
import proofs.«415927_j1254130450626_1_alg».proof.Proof.RegStats5
import proofs.«415927_j1254130450626_1_alg».proof.Proof.RegApply6

set_option maxRecDepth 16384

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (Y : Valuation τ sig (Elt Ideal))

theorem l2_zero : after hostOps5 Y main_c_18 = constantI S_ 32 0#32 := by
  after_results
theorem l2_pad (hz : Y main_c_18 = constantI S_ 32 0#32) : after hostOps5_1 Y main_v105 = padT (Y main_v98) := by
  after_results; rw [hz]; rfl
set_option maxHeartbeats 1000000 in
theorem l2_a : after hostOps6 Y main_v124 = aT (Y main_v106_0) (Y main_v106_1) (Y main_v100) (Y main_v104) := by
  after_results_simp
  rfl
set_option maxHeartbeats 1000000 in
theorem l2_b : after hostOps6 Y main_v127 = bT (Y main_v106_0) (Y main_v106_1) (Y main_v100) (Y main_v102) (Y main_v104) := by
  after_results_simp
  rfl
theorem l2_out : after hostOps7 Y main_v129 = sliceT (Y main_v128) := by
  after_results; rfl

/-- No stretch between the slicing of the three parameter rows and the statistics kernel's exit writes them. -/
theorem l2_par (c : Dev nD) : W20 m ρ c main_v100 = rowT2 (m ((c : Thread nD τ).loc main_arg4))
    ∧ W20 m ρ c main_v102 = rowT2 (m ((c : Thread nD τ).loc main_arg5))
    ∧ W20 m ρ c main_v104 = rowT2 (m ((c : Thread nD τ).loc main_arg6)) := by
  rw [← W17_arg4 m ρ c, ← W17_arg5 m ρ c, ← W17_arg6 m ρ c]
  refine ⟨?_, ?_, ?_⟩ <;>
    refine (W20_of_ne m ρ c _ (by decide)).trans ((after_of_writes_sub _ _ hostOps5_1_writes (by decide)).trans ?_) <;>
    after_results <;> rfl

theorem K_layer2 (c : Dev nD) : W23 (F := Ideal) m ρ c (Proc.devRef .tc main_v129)
    = klayerRelu (W18 (F := Ideal) m ρ c (Proc.devRef .tc main_v98)) (rowT2 (m ((c : Thread nD τ).loc main_arg4)))
        (rowT2 (m ((c : Thread nD τ).loc main_arg5))) (rowT2 (m ((c : Thread nD τ).loc main_arg6))) :=
  layer_eq Spec.affineRelu (l2_out (W22 m ρ c)) ((W22_arr m ρ c 3).trans (apply6_value (V21 m ρ) c))
    (after_of_writes_sub _ _ hostOps6_writes (by decide)) (l2_a (W20 m ρ c)) (l2_b (W20 m ρ c)) (l2_par m ρ c)
    ((W20_arr m ρ c 1).trans (stats5_sum (V19 m ρ) c)) ((W20_arr m ρ c 2).trans (stats5_sumsq (V19 m ρ) c))
    ((W20_arr m ρ c 0).trans ((dat5 (V19 m ρ) c).arrAt_in 0 rfl cfg5.N)) (l2_pad _ (l2_zero (W17 m ρ c)))

end Cert.KernelIdeal.Val
-- ==== Proof.RegStats7.lean ====
import proofs.«415927_j1254130450626_1_alg».proof.Proof.Gen.KernelIdeal.Frame
import proofs.«415927_j1254130450626_1_alg».proof.Proof.StatsCommon

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

section Pieces
variable {F : FTy → Type} [FloatOps F] (c : Dev nD) (i : grid7.Coords) (a1 : Memref sig .tc .vmem S2048x128 .f32) (h1 : a1.IsWhole)
  (a2 : Memref sig .tc .vmem S1x128 .f32) (h2 : a2.IsWhole) (a3 : Memref sig .tc .vmem S1x128 .f32) (h3 : a3.IsWhole)
  (x : Vec F S2048x128 .f32)

theorem stats7_B (hc : ¬cond7_0 i) (xo1 xo2 : Vec F S1x128 .f32) :
    (out7_B_1 c i a1 h1 a2 h2 a3 h3 hc x xo1 xo2, out7_B_2 c i a1 h1 a2 h2 a3 h3 hc x xo1 xo2)
      = (k7_pay4 x xo1, k7_pay5 x xo2) := by
  unfold out7_B_1 out7_B_2
  rw [View.read_writes_eq_canon _ _ _ (cover7_B_1 c i a1 h1 a2 h2 a3 h3 hc x xo1 xo2),
    View.read_writes_eq_canon _ _ _ (cover7_B_2 c i a1 h1 a2 h2 a3 h3 hc x xo1 xo2)]
  unfold kernelRun7_B
  dsimp only
  sl_unfold_words
  simp only [View.canon_unit_zero (S := S1x128) hz2, View.readAt_eq_ld, h1.read_unread, h2.read_unread, h3.read_unread,
    View.ld_unit_zero (S := S2048x128) hz2, View.ld_unit_zero (S := S1x128) hz2]

theorem stats7_A (hc : cond7_0 i) :
    (out7_A_1 c i a1 h1 a2 h2 a3 h3 hc x, out7_A_2 c i a1 h1 a2 h2 a3 h3 hc x)
      = (k7_pay4 x (k7_pay2 (F := F)), k7_pay5 x (k7_pay3 (F := F))) := by
  unfold out7_A_1 out7_A_2
  rw [View.read_writes_eq_canon _ _ _ (cover7_A_1 c i a1 h1 a2 h2 a3 h3 hc x),
    View.read_writes_eq_canon _ _ _ (cover7_A_2 c i a1 h1 a2 h2 a3 h3 hc x)]
  unfold kernelRun7_A
  dsimp only
  sl_unfold_words
  simp only [View.canon_cons_unit_zero (S := S1x128) hz2, View.readCov_unit_zero (S := S1x128) _ hz2, View.readAt_eq_ld,
    h1.read_unread, View.ld_unit_zero (S := S2048x128) hz2]

end Pieces

theorem stats7_idx0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

-- Entry (r, q) of the block at point t is entry (2048·t + r, q) of the input.
theorem stats7_blk_apply (c : Dev nD) (t : Fin cfg7.N) (r : Fin 2048) (q : Fin 128) :
    (iblk7 V c 0 t : FVec Ideal S2048x128 .f32) (ix2 r q) = row (V c main_v149) (2048 * t.val + r.val) q := by
  obtain ⟨e0, e1⟩ := stats7_idx0 t
  have hN : t.val < 49 := lt_of_lt_of_eq t.isLt (show cfg7.N = 49 from N_7)
  have hr : r.val < 2048 := r.isLt
  have hp : 2048 * t.val + r.val < 100352 := by omega
  refine Eq.trans ?_ (row_of_lt (V c main_v149) ⟨2048 * t.val + r.val, hp⟩ q).symm
  show iblk7 V c 0 t (ix2 r q) = V c main_v149 _
  unfold iblk7
  rw [View.read_apply]
  show V c main_v149 _ = V c main_v149 _
  congr 1
  funext a
  apply Fin.ext
  match a with
  | ⟨0, _⟩ => show win7_0.index t (0 : Fin 2) * 2048 + 1 * r.val = 2048 * t.val + r.val; rw [e0]; omega
  | ⟨1, _⟩ => show win7_0.index t (1 : Fin 2) * 128 + 1 * q.val = q.val; rw [e1]; omega

abbrev stats7_last : Fin cfg7.N := ⟨48, by rw [show cfg7.N = 49 from N_7]; decide⟩

-- The two rows after the last point: the column sums of the input and of its squares.
theorem stats7_end (c : Dev nD) :
    ((outsAt7 V c 48 stats7_last.isLt).1 : Spec.Mat 1 128) = Spec.colSum (V c main_v149)
    ∧ ((outsAt7 V c 48 stats7_last.isLt).2 : Spec.Mat 1 128) = Spec.colSumSq (V c main_v149) :=
  acc_end (V c main_v149) (fun t => iblk7 V c 0 t) (outsAt7 V c) (stats7_blk_apply V c)
    (fun h => by
      rw [outsAt7_A V c ⟨0, h⟩ rfl]
      exact stats7_A (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) (iblk7 V c 0 ⟨0, h⟩) ((hcond7_0 ⟨0, h⟩).mpr rfl))
    (fun n h => by
      have h49 : n + 1 < 49 := lt_of_lt_of_eq h (show cfg7.N = 49 from N_7)
      have hB : ¬(⟨n + 1, h⟩ : Fin cfg7.N).val % 49 = 0 := by dsimp only; omega
      rw [outsAt7_B V c ⟨n + 1, h⟩ hB]
      exact stats7_B (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (iblk7 V c 0 ⟨n + 1, h⟩) (fun hh => hB ((hcond7_0 ⟨n + 1, h⟩).mp hh))
        (outsAt7 V c n (Nat.lt_of_succ_lt h)).1 (outsAt7 V c n (Nat.lt_of_succ_lt h)).2)
    stats7_last.isLt

theorem stats7_flushed1 (c : Dev nD) (t : Fin cfg7.N) (hf : (cfg7.win 1).flush t = true) :
    (dat7 (F := Ideal) V c).flushed 1 t = ((cfg7.win 1).blk t).view.read (Elt Ideal) (Spec.colSum (V c main_v149)) := by
  have hN : cfg7.N = 49 := N_7
  have h48 : t.val = 48 := by have := (flush7_1 t).mp hf; have := t.isLt; omega
  obtain rfl : t = stats7_last := Fin.ext h48
  show (cfg7.win 1).cut (grid7.coords stats7_last) ((dat7 (F := Ideal) V c).after 1 stats7_last) = _
  rw [after7_1, (stats7_end V c).1]
  have hz' : (fun a => win7_1.index stats7_last a * main_v150_0.ty.shape.size a) = fun _ => 0 := funext fun a => by fin_cases a <;> decide
  exact (Memref.read_access_unit_zero (Elt Ideal) main_v150_0 hz' (fun a => by rw [congrFun hz' a]; simp) (Spec.colSum (V c main_v149))).symm

theorem stats7_flushed2 (c : Dev nD) (t : Fin cfg7.N) (hf : (cfg7.win 2).flush t = true) :
    (dat7 (F := Ideal) V c).flushed 2 t = ((cfg7.win 2).blk t).view.read (Elt Ideal) (Spec.colSumSq (V c main_v149)) := by
  have hN : cfg7.N = 49 := N_7
  have h48 : t.val = 48 := by have := (flush7_2 t).mp hf; have := t.isLt; omega
  obtain rfl : t = stats7_last := Fin.ext h48
  show (cfg7.win 2).cut (grid7.coords stats7_last) ((dat7 (F := Ideal) V c).after 2 stats7_last) = _
  rw [after7_2, (stats7_end V c).2]
  have hz' : (fun a => win7_2.index stats7_last a * main_v150_1.ty.shape.size a) = fun _ => 0 := funext fun a => by fin_cases a <;> decide
  exact (Memref.read_access_unit_zero (Elt Ideal) main_v150_1 hz' (fun a => by rw [congrFun hz' a]; simp) (Spec.colSumSq (V c main_v149))).symm

theorem stats7_sum (c : Dev nD) : ((dat7 (F := Ideal) V c).arrAt 1 cfg7.N : Spec.Mat 1 128) = Spec.colSum (V c main_v149) :=
  (dat7 (F := Ideal) V c).arrAt_eq_of_cover 1 (Spec.colSum (V c main_v149)) (stats7_flushed1 V c) fun i =>
    ⟨stats7_last, (flush7_1 stats7_last).mpr rfl, by
      show i ∈ ((View.whole main_v150_0).slice (win7_1.rect stats7_last)).set
      rw [View.set_slice_whole, Rect.mem_set_unit]
      exact mem_whole (S := S1x128) i (fun a => win7_1.index stats7_last a * win7_1.size a)
        (fun a => win7_1.xsize (grid7.coords stats7_last) a) (by decide +kernel) (by decide +kernel)⟩

theorem stats7_sumsq (c : Dev nD) : ((dat7 (F := Ideal) V c).arrAt 2 cfg7.N : Spec.Mat 1 128) = Spec.colSumSq (V c main_v149) :=
  (dat7 (F := Ideal) V c).arrAt_eq_of_cover 2 (Spec.colSumSq (V c main_v149)) (stats7_flushed2 V c) fun i =>
    ⟨stats7_last, (flush7_2 stats7_last).mpr rfl, by
      show i ∈ ((View.whole main_v150_1).slice (win7_2.rect stats7_last)).set
      rw [View.set_slice_whole, Rect.mem_set_unit]
      exact mem_whole (S := S1x128) i (fun a => win7_2.index stats7_last a * win7_2.size a)
        (fun a => win7_2.xsize (grid7.coords stats7_last) a) (by decide +kernel) (by decide +kernel)⟩

end Cert.KernelIdeal.Val

end
-- ==== Proof.RegApply8.lean ====
import proofs.«415927_j1254130450626_1_alg».proof.Proof.ApplyCommon

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem apply8_idx : ∀ t : Fin cfg8.N,
    ApplyIdx (win8_0.index t) (win8_1.index t) (win8_2.index t) (win8_3.index t) t.val :=
  (by decide +kernel : ∀ t : Fin grid8.N, _)

theorem apply8_value (c : Dev nD) : ((dat8 (F := Ideal) V c).arrAt 3 cfg8.N : Spec.Mat 100352 128)
    = Spec.affine (V c main_v149) (V c main_v168) (V c main_v171) := by
  refine (dat8 (F := Ideal) V c).arrAt_eq_of_cover 3 _ (fun t _ => ?_) fun i => ?_
  · show (cfg8.win 3).cut (grid8.coords t) ((dat8 (F := Ideal) V c).after 3 t) = _
    rw [after8_3]
    exact (out_eq k8_pay1 (iblk8 V c 0 t) (iblk8 V c 1 t) (iblk8 V c 2 t)).trans
      (funext (affine_blk (V c main_v149) (V c main_v168) (V c main_v171) (apply8_idx t) (win8_0.rect_emb_val t)
        (win8_1.rect_emb_val t) (win8_2.rect_emb_val t) (win8_3.rect_emb_val t)))
  · obtain ⟨t, y, rfl⟩ := rows_cover (fun t => win8_3.rect_emb_val t) (fun t => (apply8_idx t).2.2.2.2.2.2) i
    exact ⟨t, flush8_3 t, View.emb_mem_set _ y⟩

end Cert.KernelIdeal.Val

end
-- ==== Proof.KLayer3.lean ====
import proofs.«415927_j1254130450626_1_alg».proof.Proof.LayerCommon
import proofs.«415927_j1254130450626_1_alg».proof.Proof.RegStats7
import proofs.«415927_j1254130450626_1_alg».proof.Proof.RegApply8

set_option maxRecDepth 16384

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (Y : Valuation τ sig (Elt Ideal))

theorem l3_zero : after hostOps7 Y main_c_26 = constantI S_ 32 0#32 := by
  after_results
theorem l3_pad (hz : Y main_c_26 = constantI S_ 32 0#32) : after hostOps7_1 Y main_v149 = padT (Y main_v142) := by
  after_results; rw [hz]; rfl
set_option maxHeartbeats 1000000 in
theorem l3_a : after hostOps8 Y main_v168 = aT (Y main_v150_0) (Y main_v150_1) (Y main_v144) (Y main_v148) := by
  after_results_simp
  rfl
set_option maxHeartbeats 1000000 in
theorem l3_b : after hostOps8 Y main_v171 = bT (Y main_v150_0) (Y main_v150_1) (Y main_v144) (Y main_v146) (Y main_v148) := by
  after_results_simp
  rfl
theorem l3_out : after hostOps9 Y main_v173 = sliceT (Y main_v172) := by
  after_results; rfl

/-- No stretch between the slicing of the three parameter rows and the statistics kernel's exit writes them. -/
theorem l3_par (c : Dev nD) : W25 m ρ c main_v144 = rowT3 (m ((c : Thread nD τ).loc main_arg4))
    ∧ W25 m ρ c main_v146 = rowT3 (m ((c : Thread nD τ).loc main_arg5))
    ∧ W25 m ρ c main_v148 = rowT3 (m ((c : Thread nD τ).loc main_arg6)) := by
  rw [← W22_arg4 m ρ c, ← W22_arg5 m ρ c, ← W22_arg6 m ρ c]
  refine ⟨?_, ?_, ?_⟩ <;>
    refine (W25_of_ne m ρ c _ (by decide)).trans ((after_of_writes_sub _ _ hostOps7_1_writes (by decide)).trans ?_) <;>
    after_results <;> rfl

theorem K_layer3 (c : Dev nD) : W28 (F := Ideal) m ρ c (Proc.devRef .tc main_v173)
    = klayer (W23 (F := Ideal) m ρ c (Proc.devRef .tc main_v142)) (rowT3 (m ((c : Thread nD τ).loc main_arg4)))
        (rowT3 (m ((c : Thread nD τ).loc main_arg5))) (rowT3 (m ((c : Thread nD τ).loc main_arg6))) :=
  layer_eq Spec.affine (l3_out (W27 m ρ c)) ((W27_arr m ρ c 3).trans (apply8_value (V26 m ρ) c))
    (after_of_writes_sub _ _ hostOps8_writes (by decide)) (l3_a (W25 m ρ c)) (l3_b (W25 m ρ c)) (l3_par m ρ c)
    ((W25_arr m ρ c 1).trans (stats7_sum (V24 m ρ) c)) ((W25_arr m ρ c 2).trans (stats7_sumsq (V24 m ρ) c))
    ((W25_arr m ρ c 0).trans ((dat7 (V24 m ρ) c).arrAt_in 0 rfl cfg7.N)) (l3_pad _ (l3_zero (W22 m ρ c)))

end Cert.KernelIdeal.Val
-- ==== Proof.RegStats9.lean ====
import proofs.«415927_j1254130450626_1_alg».proof.Proof.Gen.KernelIdeal.Frame
import proofs.«415927_j1254130450626_1_alg».proof.Proof.StatsCommon

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

section Pieces
variable {F : FTy → Type} [FloatOps F] (c : Dev nD) (i : grid9.Coords) (a1 : Memref sig .tc .vmem S2048x128 .f32) (h1 : a1.IsWhole)
  (a2 : Memref sig .tc .vmem S1x128 .f32) (h2 : a2.IsWhole) (a3 : Memref sig .tc .vmem S1x128 .f32) (h3 : a3.IsWhole)
  (x : Vec F S2048x128 .f32)

theorem stats9_B (hc : ¬cond9_0 i) (xo1 xo2 : Vec F S1x128 .f32) :
    (out9_B_1 c i a1 h1 a2 h2 a3 h3 hc x xo1 xo2, out9_B_2 c i a1 h1 a2 h2 a3 h3 hc x xo1 xo2)
      = (k9_pay4 x xo1, k9_pay5 x xo2) := by
  unfold out9_B_1 out9_B_2
  rw [View.read_writes_eq_canon _ _ _ (cover9_B_1 c i a1 h1 a2 h2 a3 h3 hc x xo1 xo2),
    View.read_writes_eq_canon _ _ _ (cover9_B_2 c i a1 h1 a2 h2 a3 h3 hc x xo1 xo2)]
  unfold kernelRun9_B
  dsimp only
  sl_unfold_words
  simp only [View.canon_unit_zero (S := S1x128) hz2, View.readAt_eq_ld, h1.read_unread, h2.read_unread, h3.read_unread,
    View.ld_unit_zero (S := S2048x128) hz2, View.ld_unit_zero (S := S1x128) hz2]

theorem stats9_A (hc : cond9_0 i) :
    (out9_A_1 c i a1 h1 a2 h2 a3 h3 hc x, out9_A_2 c i a1 h1 a2 h2 a3 h3 hc x)
      = (k9_pay4 x (k9_pay2 (F := F)), k9_pay5 x (k9_pay3 (F := F))) := by
  unfold out9_A_1 out9_A_2
  rw [View.read_writes_eq_canon _ _ _ (cover9_A_1 c i a1 h1 a2 h2 a3 h3 hc x),
    View.read_writes_eq_canon _ _ _ (cover9_A_2 c i a1 h1 a2 h2 a3 h3 hc x)]
  unfold kernelRun9_A
  dsimp only
  sl_unfold_words
  simp only [View.canon_cons_unit_zero (S := S1x128) hz2, View.readCov_unit_zero (S := S1x128) _ hz2, View.readAt_eq_ld,
    h1.read_unread, View.ld_unit_zero (S := S2048x128) hz2]

end Pieces

theorem stats9_idx0 : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)

-- Entry (r, q) of the block at point t is entry (2048·t + r, q) of the input.
theorem stats9_blk_apply (c : Dev nD) (t : Fin cfg9.N) (r : Fin 2048) (q : Fin 128) :
    (iblk9 V c 0 t : FVec Ideal S2048x128 .f32) (ix2 r q) = row (V c main_v180) (2048 * t.val + r.val) q := by
  obtain ⟨e0, e1⟩ := stats9_idx0 t
  have hN : t.val < 49 := lt_of_lt_of_eq t.isLt (show cfg9.N = 49 from N_9)
  have hr : r.val < 2048 := r.isLt
  have hp : 2048 * t.val + r.val < 100352 := by omega
  refine Eq.trans ?_ (row_of_lt (V c main_v180) ⟨2048 * t.val + r.val, hp⟩ q).symm
  show iblk9 V c 0 t (ix2 r q) = V c main_v180 _
  unfold iblk9
  rw [View.read_apply]
  show V c main_v180 _ = V c main_v180 _
  congr 1
  funext a
  apply Fin.ext
  match a with
  | ⟨0, _⟩ => show win9_0.index t (0 : Fin 2) * 2048 + 1 * r.val = 2048 * t.val + r.val; rw [e0]; omega
  | ⟨1, _⟩ => show win9_0.index t (1 : Fin 2) * 128 + 1 * q.val = q.val; rw [e1]; omega

abbrev stats9_last : Fin cfg9.N := ⟨48, by rw [show cfg9.N = 49 from N_9]; decide⟩

-- The two rows after the last point: the column sums of the input and of its squares.
theorem stats9_end (c : Dev nD) :
    ((outsAt9 V c 48 stats9_last.isLt).1 : Spec.Mat 1 128) = Spec.colSum (V c main_v180)
    ∧ ((outsAt9 V c 48 stats9_last.isLt).2 : Spec.Mat 1 128) = Spec.colSumSq (V c main_v180) :=
  acc_end (V c main_v180) (fun t => iblk9 V c 0 t) (outsAt9 V c) (stats9_blk_apply V c)
    (fun h => by
      rw [outsAt9_A V c ⟨0, h⟩ rfl]
      exact stats9_A (F := Ideal) c (grid9.coords ⟨0, h⟩) (ms9_0 ⟨0, h⟩) (hs9_0 ⟨0, h⟩) (ms9_1 ⟨0, h⟩) (hs9_1 ⟨0, h⟩) (ms9_2 ⟨0, h⟩) (hs9_2 ⟨0, h⟩) (iblk9 V c 0 ⟨0, h⟩) ((hcond9_0 ⟨0, h⟩).mpr rfl))
    (fun n h => by
      have h49 : n + 1 < 49 := lt_of_lt_of_eq h (show cfg9.N = 49 from N_9)
      have hB : ¬(⟨n + 1, h⟩ : Fin cfg9.N).val % 49 = 0 := by dsimp only; omega
      rw [outsAt9_B V c ⟨n + 1, h⟩ hB]
      exact stats9_B (F := Ideal) c (grid9.coords ⟨n + 1, h⟩) (ms9_0 ⟨n + 1, h⟩) (hs9_0 ⟨n + 1, h⟩) (ms9_1 ⟨n + 1, h⟩) (hs9_1 ⟨n + 1, h⟩) (ms9_2 ⟨n + 1, h⟩) (hs9_2 ⟨n + 1, h⟩) (iblk9 V c 0 ⟨n + 1, h⟩) (fun hh => hB ((hcond9_0 ⟨n + 1, h⟩).mp hh))
        (outsAt9 V c n (Nat.lt_of_succ_lt h)).1 (outsAt9 V c n (Nat.lt_of_succ_lt h)).2)
    stats9_last.isLt

theorem stats9_flushed1 (c : Dev nD) (t : Fin cfg9.N) (hf : (cfg9.win 1).flush t = true) :
    (dat9 (F := Ideal) V c).flushed 1 t = ((cfg9.win 1).blk t).view.read (Elt Ideal) (Spec.colSum (V c main_v180)) := by
  have hN : cfg9.N = 49 := N_9
  have h48 : t.val = 48 := by have := (flush9_1 t).mp hf; have := t.isLt; omega
  obtain rfl : t = stats9_last := Fin.ext h48
  show (cfg9.win 1).cut (grid9.coords stats9_last) ((dat9 (F := Ideal) V c).after 1 stats9_last) = _
  rw [after9_1, (stats9_end V c).1]
  have hz' : (fun a => win9_1.index stats9_last a * main_v181_0.ty.shape.size a) = fun _ => 0 := funext fun a => by fin_cases a <;> decide
  exact (Memref.read_access_unit_zero (Elt Ideal) main_v181_0 hz' (fun a => by rw [congrFun hz' a]; simp) (Spec.colSum (V c main_v180))).symm

theorem stats9_flushed2 (c : Dev nD) (t : Fin cfg9.N) (hf : (cfg9.win 2).flush t = true) :
    (dat9 (F := Ideal) V c).flushed 2 t = ((cfg9.win 2).blk t).view.read (Elt Ideal) (Spec.colSumSq (V c main_v180)) := by
  have hN : cfg9.N = 49 := N_9
  have h48 : t.val = 48 := by have := (flush9_2 t).mp hf; have := t.isLt; omega
  obtain rfl : t = stats9_last := Fin.ext h48
  show (cfg9.win 2).cut (grid9.coords stats9_last) ((dat9 (F := Ideal) V c).after 2 stats9_last) = _
  rw [after9_2, (stats9_end V c).2]
  have hz' : (fun a => win9_2.index stats9_last a * main_v181_1.ty.shape.size a) = fun _ => 0 := funext fun a => by fin_cases a <;> decide
  exact (Memref.read_access_unit_zero (Elt Ideal) main_v181_1 hz' (fun a => by rw [congrFun hz' a]; simp) (Spec.colSumSq (V c main_v180))).symm

theorem stats9_sum (c : Dev nD) : ((dat9 (F := Ideal) V c).arrAt 1 cfg9.N : Spec.Mat 1 128) = Spec.colSum (V c main_v180) :=
  (dat9 (F := Ideal) V c).arrAt_eq_of_cover 1 (Spec.colSum (V c main_v180)) (stats9_flushed1 V c) fun i =>
    ⟨stats9_last, (flush9_1 stats9_last).mpr rfl, by
      show i ∈ ((View.whole main_v181_0).slice (win9_1.rect stats9_last)).set
      rw [View.set_slice_whole, Rect.mem_set_unit]
      exact mem_whole (S := S1x128) i (fun a => win9_1.index stats9_last a * win9_1.size a)
        (fun a => win9_1.xsize (grid9.coords stats9_last) a) (by decide +kernel) (by decide +kernel)⟩

theorem stats9_sumsq (c : Dev nD) : ((dat9 (F := Ideal) V c).arrAt 2 cfg9.N : Spec.Mat 1 128) = Spec.colSumSq (V c main_v180) :=
  (dat9 (F := Ideal) V c).arrAt_eq_of_cover 2 (Spec.colSumSq (V c main_v180)) (stats9_flushed2 V c) fun i =>
    ⟨stats9_last, (flush9_2 stats9_last).mpr rfl, by
      show i ∈ ((View.whole main_v181_1).slice (win9_2.rect stats9_last)).set
      rw [View.set_slice_whole, Rect.mem_set_unit]
      exact mem_whole (S := S1x128) i (fun a => win9_2.index stats9_last a * win9_2.size a)
        (fun a => win9_2.xsize (grid9.coords stats9_last) a) (by decide +kernel) (by decide +kernel)⟩

end Cert.KernelIdeal.Val

end
-- ==== Proof.RegApply10.lean ====
import proofs.«415927_j1254130450626_1_alg».proof.Proof.ApplyCommon

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem apply10_idx : ∀ t : Fin cfg10.N,
    ApplyIdx (win10_0.index t) (win10_1.index t) (win10_2.index t) (win10_3.index t) t.val :=
  (by decide +kernel : ∀ t : Fin grid10.N, _)

theorem apply10_value (c : Dev nD) : ((dat10 (F := Ideal) V c).arrAt 3 cfg10.N : Spec.Mat 100352 128)
    = Spec.affine (V c main_v180) (V c main_v199) (V c main_v202) := by
  refine (dat10 (F := Ideal) V c).arrAt_eq_of_cover 3 _ (fun t _ => ?_) fun i => ?_
  · show (cfg10.win 3).cut (grid10.coords t) ((dat10 (F := Ideal) V c).after 3 t) = _
    rw [after10_3]
    exact (out_eq k10_pay1 (iblk10 V c 0 t) (iblk10 V c 1 t) (iblk10 V c 2 t)).trans
      (funext (affine_blk (V c main_v180) (V c main_v199) (V c main_v202) (apply10_idx t) (win10_0.rect_emb_val t)
        (win10_1.rect_emb_val t) (win10_2.rect_emb_val t) (win10_3.rect_emb_val t)))
  · obtain ⟨t, y, rfl⟩ := rows_cover (fun t => win10_3.rect_emb_val t) (fun t => (apply10_idx t).2.2.2.2.2.2) i
    exact ⟨t, flush10_3 t, View.emb_mem_set _ y⟩

end Cert.KernelIdeal.Val

end
-- ==== Proof.KLayer4.lean ====
import proofs.«415927_j1254130450626_1_alg».proof.Proof.LayerCommon
import proofs.«415927_j1254130450626_1_alg».proof.Proof.RegStats9
import proofs.«415927_j1254130450626_1_alg».proof.Proof.RegApply10

set_option maxRecDepth 16384

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (Y : Valuation τ sig (Elt Ideal))

theorem l4_zero : after hostOps9 Y main_c_31 = constantI S_ 32 0#32 := by
  after_results
theorem l4_pad (hz : Y main_c_31 = constantI S_ 32 0#32) : after hostOps9_1 Y main_v180 = padT (Y main_v173) := by
  after_results; rw [hz]; rfl
set_option maxHeartbeats 1000000 in
theorem l4_a : after hostOps10 Y main_v199 = aT (Y main_v181_0) (Y main_v181_1) (Y main_v175) (Y main_v179) := by
  after_results_simp
  rfl
set_option maxHeartbeats 1000000 in
theorem l4_b : after hostOps10 Y main_v202 = bT (Y main_v181_0) (Y main_v181_1) (Y main_v175) (Y main_v177) (Y main_v179) := by
  after_results_simp
  rfl
theorem l4_out : after hostOps11 Y main_v204 = sliceT (Y main_v203) := by
  after_results; rfl

/-- No stretch between the slicing of the three parameter rows and the statistics kernel's exit writes them. -/
theorem l4_par (c : Dev nD) : W30 m ρ c main_v175 = rowT4 (m ((c : Thread nD τ).loc main_arg4))
    ∧ W30 m ρ c main_v177 = rowT4 (m ((c : Thread nD τ).loc main_arg5))
    ∧ W30 m ρ c main_v179 = rowT4 (m ((c : Thread nD τ).loc main_arg6)) := by
  rw [← W27_arg4 m ρ c, ← W27_arg5 m ρ c, ← W27_arg6 m ρ c]
  refine ⟨?_, ?_, ?_⟩ <;>
    refine (W30_of_ne m ρ c _ (by decide)).trans ((after_of_writes_sub _ _ hostOps9_1_writes (by decide)).trans ?_) <;>
    after_results <;> rfl

theorem K_layer4 (c : Dev nD) : W33 (F := Ideal) m ρ c (Proc.devRef .tc main_v204)
    = klayer (W28 (F := Ideal) m ρ c (Proc.devRef .tc main_v173)) (rowT4 (m ((c : Thread nD τ).loc main_arg4)))
        (rowT4 (m ((c : Thread nD τ).loc main_arg5))) (rowT4 (m ((c : Thread nD τ).loc main_arg6))) :=
  layer_eq Spec.affine (l4_out (W32 m ρ c)) ((W32_arr m ρ c 3).trans (apply10_value (V31 m ρ) c))
    (after_of_writes_sub _ _ hostOps10_writes (by decide)) (l4_a (W30 m ρ c)) (l4_b (W30 m ρ c)) (l4_par m ρ c)
    ((W30_arr m ρ c 1).trans (stats9_sum (V29 m ρ) c)) ((W30_arr m ρ c 2).trans (stats9_sumsq (V29 m ρ) c))
    ((W30_arr m ρ c 0).trans ((dat9 (V29 m ρ) c).arrAt_in 0 rfl cfg9.N)) (l4_pad _ (l4_zero (W27 m ρ c)))

end Cert.KernelIdeal.Val
-- ==== Proof.GnSpec.lean ====
import Idealize.ShloMosaic.PureOps.Ideal

noncomputable section

namespace Cert.GnSpec

open Idealize.ShloMosaic

def onePassG (N eps two : EReal) (h : Fin 100000 → EReal) (w b s : EReal) (p : Fin 100000) : EReal :=
  let mean := Ideal.div (∑ q, h q) N
  let msq := Ideal.div (∑ q, h q * h q) N
  let var := msq + (mean * mean) * (s * s - two * s)
  let std := Ideal.sqrt (var + eps)
  let a := Ideal.div w std
  let c := b - (a * mean) * s
  h p * a + c

def twoPassG (N eps : EReal) (h : Fin 100000 → EReal) (w b s : EReal) (p : Fin 100000) : EReal :=
  let mean := Ideal.div (0 + ∑ q, h q) N
  let o : Fin 100000 → EReal := fun q => h q - mean * s
  let std := Ideal.sqrt (Ideal.div (0 + ∑ q, o q * o q) N + eps)
  Ideal.div (w * o p) std + b

abbrev NN : EReal := Ideal.ofBits .f32 0x47C35000#32

abbrev EPS : EReal := Ideal.ofBits .f32 0x358637BD#32

abbrev TWO : EReal := Ideal.ofBits .f32 0x40000000#32

def onePass (h : Fin 100000 → EReal) (w b s : EReal) (p : Fin 100000) : EReal := onePassG NN EPS TWO h w b s p

def twoPass (h : Fin 100000 → EReal) (w b s : EReal) (p : Fin 100000) : EReal := twoPassG NN EPS h w b s p

end Cert.GnSpec

end
-- ==== Proof.KLayerIdx.lean ====
import proofs.«415927_j1254130450626_1_alg».proof.Proof.KTerms
import proofs.«415927_j1254130450626_1_alg».proof.Proof.GnSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Val

open Idealize.ShloMosaic Idealize.ShloMosaic.ValueIdx

theorem sliceT_apply (X : C S100352x128) (r : Fin 100000) (q : Fin 128) :
    sliceT X (ix2 r q) = X (ix2 (Fin.castLE (by norm_num : 100000 ≤ 100352) r) q) := by
  unfold sliceT
  exact slice2_axis0_apply 0 X _ r q (Fin.castLE (by norm_num) r) (by simp)

theorem padT_apply_lt (H : C S100000x128) (r : Fin 100352) (q : Fin 128) (hr : r.val < 100000) :
    padT H (ix2 r q) = H (ix2 (⟨r.val, hr⟩ : Fin 100000) q) := by
  unfold padT
  refine pad_apply_of_inside _ _ _ H _ _ _ (ix2 r q) (ix2 (⟨r.val, hr⟩ : Fin 100000) q) (fun a => ?_)
  match a with
  | ⟨0, _⟩ => show r.val = 0 + r.val * (0 + 1); omega
  | ⟨1, _⟩ => show q.val = 0 + q.val * (0 + 1); omega

theorem padT_apply_ge (H : C S100000x128) (r : Fin 100352) (q : Fin 128) (hr : 100000 ≤ r.val) :
    padT H (ix2 r q) = 0 := by
  unfold padT
  refine (pad_apply_of_not_inside _ _ _ H _ _ _ (ix2 r q) (⟨0, by decide⟩ : Fin 2) (fun hin => ?_)).trans ?_
  · have h3 := hin.2.2
    change (r.val - 0) / (0 + 1) < 100000 at h3
    omega
  · show (((0#32 : BitVec 32).toInt : ℝ) : EReal) = 0
    simp

theorem sum_pad_rows (f : Fin 100352 → EReal) (h0 : ∀ p : Fin 100352, 100000 ≤ p.val → f p = 0) :
    ∑ p, f p = ∑ p : Fin 100000, f (Fin.castLE (by norm_num : 100000 ≤ 100352) p) := by
  show ∑ p : Fin (100000 + 352), f p = _
  have hz : ∑ i : Fin 352, f (Fin.natAdd 100000 i) = 0 := Finset.sum_eq_zero (fun i _ => h0 _ (by simp))
  rw [Fin.sum_univ_add, hz, add_zero]
  rfl

theorem colSum_padT (H : C S100000x128) (u : Fin 1) (q : Fin 128) :
    Spec.colSum (padT H) (ix2 u q) = ∑ p : Fin 100000, H (ix2 p q) := by
  show ∑ p : Fin 100352, padT H (ix2 p q) = _
  rw [sum_pad_rows _ (fun p hp => padT_apply_ge H p q hp)]
  exact Finset.sum_congr rfl (fun p _ => padT_apply_lt H _ q p.isLt)

theorem colSumSq_padT (H : C S100000x128) (u : Fin 1) (q : Fin 128) :
    Spec.colSumSq (padT H) (ix2 u q) = ∑ p : Fin 100000, H (ix2 p q) * H (ix2 p q) := by
  show ∑ p : Fin 100352, padT H (ix2 p q) * padT H (ix2 p q) = _
  rw [sum_pad_rows _ (fun p hp => by rw [padT_apply_ge H p q hp, mul_zero])]
  exact Finset.sum_congr rfl (fun p _ => by rw [padT_apply_lt H _ q p.isLt]; rfl)

theorem nT_apply (j : S1x128.Idx) : nT j = GnSpec.NN := rfl

theorem epsT_apply (j : S1x128.Idx) : epsT j = GnSpec.EPS := rfl

theorem twoT_apply (j : S1x128.Idx) : twoT j = GnSpec.TWO := rfl

theorem bc_apply (v : C S128) (u : Fin 1) (q : Fin 128) : bc v (ix2 u q) = v (ix1 q) := by
  unfold bc
  exact broadcastInDim_apply _ _ v (ix2 u q) (ix1 q) (fun a => match a with | ⟨0, _⟩ => rfl)

theorem hostDivf_apply {S : Shape} (x y : C S) (i : S.Idx) : Host.divf (F := Ideal) x y i = Ideal.div (x i) (y i) := rfl

theorem hostSqrt_apply {S : Shape} (x : C S) (i : S.Idx) : Host.sqrt (F := Ideal) x i = Ideal.sqrt (x i) := rfl

theorem meanT_apply (S1 : C S1x128) (j : S1x128.Idx) : meanT S1 j = Ideal.div (S1 j) GnSpec.NN := rfl

theorem aT_apply (S1 S2 : C S1x128) (w s : C S128) (u : Fin 1) (q : Fin 128) :
    aT S1 S2 w s (ix2 u q)
      = Ideal.div (w (ix1 q)) (Ideal.sqrt (Ideal.div (S2 (ix2 u q)) GnSpec.NN
          + (Ideal.div (S1 (ix2 u q)) GnSpec.NN * Ideal.div (S1 (ix2 u q)) GnSpec.NN)
            * (s (ix1 q) * s (ix1 q) - GnSpec.TWO * s (ix1 q)) + GnSpec.EPS)) := by
  unfold aT
  simp only [hostDivf_apply, hostSqrt_apply, addf_apply, mulf_apply, subf_apply, meanT_apply, bc_apply, nT_apply,
    epsT_apply, twoT_apply]

theorem bT_apply (S1 S2 : C S1x128) (w b s : C S128) (u : Fin 1) (q : Fin 128) :
    bT S1 S2 w b s (ix2 u q)
      = b (ix1 q) - (aT S1 S2 w s (ix2 u q) * Ideal.div (S1 (ix2 u q)) GnSpec.NN) * s (ix1 q) := by
  unfold bT
  simp only [subf_apply, mulf_apply, meanT_apply, bc_apply]

theorem klayer_apply_ix (H : C S100000x128) (w b s : C S128) (r : Fin 100000) (q : Fin 128) :
    klayer H w b s (ix2 r q)
      = GnSpec.onePass (fun p => H (ix2 p q)) (w (ix1 q)) (b (ix1 q)) (s (ix1 q)) r := by
  unfold klayer
  rw [sliceT_apply]
  show padT H (ix2 (Fin.castLE _ r) q) * aT _ _ w s (ix2 (0 : Fin 1) q) + bT _ _ w b s (ix2 (0 : Fin 1) q) = _
  rw [padT_apply_lt H _ q r.isLt, bT_apply, aT_apply, colSum_padT, colSumSq_padT]
  rfl

theorem klayer_apply (H : C S100000x128) (w b s : C S128) (j : (Spec.Sh2 100000 128).Idx) :
    (klayer H w b s : Spec.Mat 100000 128) j
      = GnSpec.onePass (fun p => (H : Spec.Mat 100000 128) (ix2 p (Spec.c2 j))) (w (ix1 (Spec.c2 j)))
          (b (ix1 (Spec.c2 j))) (s (ix1 (Spec.c2 j))) (Spec.r2 j) := by
  obtain ⟨r, q, rfl⟩ : ∃ r q, j = ix2 r q := ⟨j 0, j 1, eq_ix2 j⟩
  exact klayer_apply_ix H w b s r q

theorem klayerRelu_apply_ix (H : C S100000x128) (w b s : C S128) (r : Fin 100000) (q : Fin 128) :
    klayerRelu H w b s (ix2 r q)
      = max (GnSpec.onePass (fun p => H (ix2 p q)) (w (ix1 q)) (b (ix1 q)) (s (ix1 q)) r) 0 := by
  unfold klayerRelu
  rw [sliceT_apply]
  show max (padT H (ix2 (Fin.castLE _ r) q) * aT _ _ w s (ix2 (0 : Fin 1) q) + bT _ _ w b s (ix2 (0 : Fin 1) q)) 0 = _
  rw [padT_apply_lt H _ q r.isLt, bT_apply, aT_apply, colSum_padT, colSumSq_padT]
  rfl

theorem klayerRelu_apply (H : C S100000x128) (w b s : C S128) (j : (Spec.Sh2 100000 128).Idx) :
    (klayerRelu H w b s : Spec.Mat 100000 128) j
      = max (GnSpec.onePass (fun p => (H : Spec.Mat 100000 128) (ix2 p (Spec.c2 j))) (w (ix1 (Spec.c2 j)))
          (b (ix1 (Spec.c2 j))) (s (ix1 (Spec.c2 j))) (Spec.r2 j)) 0 := by
  obtain ⟨r, q, rfl⟩ : ∃ r q, j = ix2 r q := ⟨j 0, j 1, eq_ix2 j⟩
  exact klayerRelu_apply_ix H w b s r q

theorem rowT0_apply (G : C S5x128) (q : Fin 128) : rowT0 G (ix1 q) = (G : Spec.Mat 5 128) (ix2 (0 : Fin 5) q) := by
  unfold rowT0
  rw [shapeCast_1a_a_apply]
  exact slice2_axis0_apply 0 G _ (0 : Fin 1) q (0 : Fin 5) (by simp)

theorem rowT1_apply (G : C S5x128) (q : Fin 128) : rowT1 G (ix1 q) = (G : Spec.Mat 5 128) (ix2 (1 : Fin 5) q) := by
  unfold rowT1
  rw [shapeCast_1a_a_apply]
  exact slice2_axis0_apply 1 G _ (0 : Fin 1) q (1 : Fin 5) (by simp)

theorem rowT2_apply (G : C S5x128) (q : Fin 128) : rowT2 G (ix1 q) = (G : Spec.Mat 5 128) (ix2 (2 : Fin 5) q) := by
  unfold rowT2
  rw [shapeCast_1a_a_apply]
  exact slice2_axis0_apply 2 G _ (0 : Fin 1) q (2 : Fin 5) (by simp)

theorem rowT3_apply (G : C S5x128) (q : Fin 128) : rowT3 G (ix1 q) = (G : Spec.Mat 5 128) (ix2 (3 : Fin 5) q) := by
  unfold rowT3
  rw [shapeCast_1a_a_apply]
  exact slice2_axis0_apply 3 G _ (0 : Fin 1) q (3 : Fin 5) (by simp)

theorem rowT4_apply (G : C S5x128) (q : Fin 128) : rowT4 G (ix1 q) = (G : Spec.Mat 5 128) (ix2 (4 : Fin 5) q) := by
  unfold rowT4
  rw [shapeCast_1a_a_apply]
  exact slice2_axis0_apply 4 G _ (0 : Fin 1) q (4 : Fin 5) (by simp)

end Cert.KernelIdeal.Val

end
-- ==== Proof.RefGnTerm.lean ====
import proofs.«415927_j1254130450626_1_alg».proof.Proof.Gen.ReferenceIdeal
import proofs.«415927_j1254130450626_1_alg».proof.Proof.Spec
import proofs.«415927_j1254130450626_1_alg».proof.Proof.GnSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RVal

open Cert.ReferenceIdeal Cert.ReferenceIdeal.Gen Idealize.ShloMosaic Idealize.ShloMosaic.TcCoe Idealize.ShloMosaic.ValueIdx
open Cert

section Term

variable {F : FTy → Type} [FloatOps F]

def prow (o : Nat) (hs : S5x128.Slices ![o, 0] S1x128) (x : (⟨S5x128, .f32⟩ : BufTy).Contents (Elt F)) :
    (⟨S128, .f32⟩ : BufTy).Contents (Elt F) :=
  shapeCast S128 (extractStridedSlice S1x128 ![o, 0] x hs) shapeCasts_S1x128_S128

def bcol (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

def ccol (b : BitVec 32) : (⟨S128, .f32⟩ : BufTy).Contents (Elt F) :=
  broadcastInDim S128 ![] bcast_S_S128 (constant S_ .f32 b : (⟨S_, .f32⟩ : BufTy).Contents (Elt F))

def colSum0 (h : (⟨S100000x128, .f32⟩ : BufTy).Contents (Elt F)) : (⟨S128, .f32⟩ : BufTy).Contents (Elt F) :=
  Host.reduceAdd h (constant S_ .f32 0x00000000#32 : (⟨S_, .f32⟩ : BufTy).Contents (Elt F)) reducesTo_S100000x128_S128_d0 h_S_

def gnMean (h : (⟨S100000x128, .f32⟩ : BufTy).Contents (Elt F)) : (⟨S128, .f32⟩ : BufTy).Contents (Elt F) :=
  Host.divf (colSum0 h) (ccol 0x47C35000#32)

def gnDev (h : (⟨S100000x128, .f32⟩ : BufTy).Contents (Elt F)) (s : (⟨S128, .f32⟩ : BufTy).Contents (Elt F)) :
    (⟨S100000x128, .f32⟩ : BufTy).Contents (Elt F) :=
  subf h (bcol (mulf (gnMean h) s))

def gnStd (h : (⟨S100000x128, .f32⟩ : BufTy).Contents (Elt F)) (s : (⟨S128, .f32⟩ : BufTy).Contents (Elt F)) :
    (⟨S128, .f32⟩ : BufTy).Contents (Elt F) :=
  Host.sqrt (addf (Host.divf (colSum0 (mulf (gnDev h s) (gnDev h s))) (ccol 0x47C35000#32)) (ccol 0x358637BD#32))

def gnOut (h : (⟨S100000x128, .f32⟩ : BufTy).Contents (Elt F)) (w b s : (⟨S128, .f32⟩ : BufTy).Contents (Elt F)) :
    (⟨S100000x128, .f32⟩ : BufTy).Contents (Elt F) :=
  addf (Host.divf (mulf (bcol w) (gnDev h s)) (bcol (gnStd h s))) (bcol b)

theorem bcol_apply (v : (⟨S128, .f32⟩ : BufTy).Contents (Elt F)) (p : Fin 100000) (c : Fin 128) :
    bcol v (ix2 p c) = v (ix1 c) := by
  unfold bcol
  refine (broadcastInDim_apply _ bcast_S1x128_S100000x128_0_1 _ (ix2 p c) (ix2 (0 : Fin 1) c) (fun a => ?_)).trans
    (broadcastInDim_apply _ bcast_S128_S1x128_1 v (ix2 (0 : Fin 1) c) (ix1 c) (fun a => ?_))
  · match a with
    | ⟨0, _⟩ => show 0 = if (1 : Nat) = 1 then 0 else p.val; rw [if_pos rfl]
    | ⟨1, _⟩ => show c.val = if (128 : Nat) = 1 then 0 else c.val; rw [if_neg (by decide)]
  · match a with
    | ⟨0, _⟩ => show c.val = if (128 : Nat) = 1 then 0 else c.val; rw [if_neg (by decide)]

theorem prow_apply (o : Nat) (hs : S5x128.Slices ![o, 0] S1x128) (x : (⟨S5x128, .f32⟩ : BufTy).Contents (Elt F))
    (k : Fin 5) (hk : k.val = o) (c : Fin 128) : prow o hs x (ix1 c) = x (ix2 k c) := by
  unfold prow
  exact (shapeCast_1a_a_apply _ shapeCasts_S1x128_S128 c).trans (slice2_axis0_apply o x hs (0 : Fin 1) c k hk)

end Term

section AtIdeal

variable {s : Shape} {φ : FTy}

theorem hostDivf_apply (a b : FVec Ideal s φ) (i : s.Idx) : Host.divf a b i = Ideal.div (a i) (b i) := rfl

theorem hostSqrt_apply (a : FVec Ideal s φ) (i : s.Idx) : Host.sqrt a i = Ideal.sqrt (a i) := rfl

end AtIdeal

theorem ccol_apply (b : BitVec 32) (i : S128.Idx) : ccol (F := Ideal) b i = Ideal.ofBits .f32 b := rfl

theorem colSum0_apply (h : Spec.Mat 100000 128) (c : Fin 128) :
    colSum0 (F := Ideal) h (ix1 c) = 0 + ∑ p : Fin 100000, h (ix2 p c) := by
  unfold colSum0
  simp only [Host.reduceAdd, Ideal.hostReduceAdd_def]
  rw [Ideal.hostReduceAdd_single reducesTo_S100000x128_S128_d0 (by decide)]
  rw [constant_apply, Ideal.ofBits_zero_f32]
  refine congrArg (_ + ·) (Finset.sum_congr rfl fun k _ => ?_)
  exact congrArg h (funext fun a => Fin.ext (by match a with | ⟨0, _⟩ => rfl | ⟨1, _⟩ => rfl))

theorem gnMean_apply (h : Spec.Mat 100000 128) (c : Fin 128) :
    gnMean (F := Ideal) h (ix1 c) = Ideal.div (0 + ∑ p : Fin 100000, h (ix2 p c)) GnSpec.NN := by
  unfold gnMean
  rw [hostDivf_apply, colSum0_apply, ccol_apply]

theorem gnDev_apply (h : Spec.Mat 100000 128) (s : (Spec.Sh1 128).Idx → EReal) (p : Fin 100000) (c : Fin 128) :
    gnDev (F := Ideal) h s (ix2 p c) = h (ix2 p c) - gnMean (F := Ideal) h (ix1 c) * s (ix1 c) := by
  unfold gnDev
  rw [subf_apply, bcol_apply, mulf_apply]

theorem gnStd_apply (h : Spec.Mat 100000 128) (s : (Spec.Sh1 128).Idx → EReal) (c : Fin 128) :
    gnStd (F := Ideal) h s (ix1 c)
      = Ideal.sqrt (Ideal.div (0 + ∑ p : Fin 100000, gnDev (F := Ideal) h s (ix2 p c) * gnDev (F := Ideal) h s (ix2 p c)) GnSpec.NN
          + GnSpec.EPS) := by
  unfold gnStd
  rw [hostSqrt_apply, addf_apply, hostDivf_apply, colSum0_apply, ccol_apply, ccol_apply]
  simp only [mulf_apply]

theorem gnOut_apply (h : Spec.Mat 100000 128) (w b s : (Spec.Sh1 128).Idx → EReal) (p : Fin 100000) (c : Fin 128) :
    gnOut (F := Ideal) h w b s (ix2 p c)
      = GnSpec.twoPass (fun q => h (ix2 q c)) (w (ix1 c)) (b (ix1 c)) (s (ix1 c)) p := by
  unfold gnOut
  rw [addf_apply, hostDivf_apply, mulf_apply, bcol_apply, bcol_apply, bcol_apply, gnStd_apply]
  simp only [gnDev_apply, gnMean_apply]
  unfold GnSpec.twoPass GnSpec.twoPassG
  rfl

theorem ix2_r2_c2 {a b : Nat} (j : (Spec.Sh2 a b).Idx) : ix2 (Spec.r2 j) (Spec.c2 j) = j := by
  funext d
  match d with
  | ⟨0, _⟩ => rfl
  | ⟨1, _⟩ => rfl

end Cert.ReferenceIdeal.RVal

end
-- ==== Proof.RefCommonGn.lean ====
import proofs.«415927_j1254130450626_1_alg».proof.Proof.RefGnTerm

noncomputable section

namespace Cert.ReferenceIdeal.RVal

open Cert.ReferenceIdeal Cert.ReferenceIdeal.Gen Idealize.ShloMosaic Idealize.ShloMosaic.TcCoe Idealize.ShloMosaic.ValueIdx
open Cert

-- GraphNorm's term at an index, each parameter row read from its array: the two-pass form over that index's column.
theorem gnOut_prow_apply (h : Spec.Mat 100000 128) (w b s : Spec.Mat 5 128) (o : Nat) (hs : S5x128.Slices ![o, 0] S1x128)
    (k : Fin 5) (hk : k.val = o) (j : (Spec.Sh2 100000 128).Idx) :
    gnOut (F := Ideal) h (prow o hs w) (prow o hs b) (prow o hs s) j
      = GnSpec.twoPass (fun p => h (ix2 p (Spec.c2 j))) (w (ix2 k (Spec.c2 j))) (b (ix2 k (Spec.c2 j))) (s (ix2 k (Spec.c2 j))) (Spec.r2 j) := by
  have e := gnOut_apply h (prow (F := Ideal) o hs w) (prow (F := Ideal) o hs b) (prow (F := Ideal) o hs s) (Spec.r2 j) (Spec.c2 j)
  rwa [ix2_r2_c2, prow_apply o hs _ k hk, prow_apply o hs _ k hk, prow_apply o hs _ k hk] at e

end Cert.ReferenceIdeal.RVal

end
-- ==== Proof.RefGn0.lean ====
import proofs.«415927_j1254130450626_1_alg».proof.Proof.RefChunks
import proofs.«415927_j1254130450626_1_alg».proof.Proof.RefCommonGn

noncomputable section

namespace Cert.ReferenceIdeal.RVal

open Cert.ReferenceIdeal Cert.ReferenceIdeal.Gen Cert.ReferenceIdeal.RawRun Idealize.ShloMosaic Idealize.ShloMosaic.TcCoe
  Idealize.ShloMosaic.StableHlo Idealize.ShloMosaic.ValueIdx
open Cert

-- The stretch's last buffer holds GraphNorm's term of the buffers the stretch starts from.
theorem c2_v55 {F : FTy → Type} [FloatOps F] (Z : Valuation τ sig (Elt F)) :
    after (c2 (F := F)) Z (Proc.devRef .tc main_v55)
      = gnOut (Z (Proc.devRef .tc main_v26)) (prow 0 slices_S5x128_S1x128_0_0 (Z (Proc.devRef .tc main_arg4)))
          (prow 0 slices_S5x128_S1x128_0_0 (Z (Proc.devRef .tc main_arg5))) (prow 0 slices_S5x128_S1x128_0_0 (Z (Proc.devRef .tc main_arg6))) := by
  unfold gnOut gnStd gnDev gnMean colSum0 ccol bcol prow
  after_results_simp
  rfl

theorem R_gn0 (Z : Valuation τ sig (Elt Ideal)) (j : (Spec.Sh2 100000 128).Idx) :
    (after (c2 (F := Ideal)) Z (Proc.devRef .tc main_v55) : Spec.Mat 100000 128) j
      = GnSpec.twoPass (fun p => (Z (Proc.devRef .tc main_v26) : Spec.Mat 100000 128) (ix2 p (Spec.c2 j)))
          ((Z (Proc.devRef .tc main_arg4) : Spec.Mat 5 128) (ix2 (0 : Fin 5) (Spec.c2 j))) ((Z (Proc.devRef .tc main_arg5) : Spec.Mat 5 128) (ix2 (0 : Fin 5) (Spec.c2 j))) ((Z (Proc.devRef .tc main_arg6) : Spec.Mat 5 128) (ix2 (0 : Fin 5) (Spec.c2 j))) (Spec.r2 j) := by
  rw [c2_v55]
  exact gnOut_prow_apply _ _ _ _ 0 _ 0 rfl j

end Cert.ReferenceIdeal.RVal

end
-- ==== Proof.RefGn1.lean ====
import proofs.«415927_j1254130450626_1_alg».proof.Proof.RefChunks
import proofs.«415927_j1254130450626_1_alg».proof.Proof.RefCommonGn

noncomputable section

namespace Cert.ReferenceIdeal.RVal

open Cert.ReferenceIdeal Cert.ReferenceIdeal.Gen Cert.ReferenceIdeal.RawRun Idealize.ShloMosaic Idealize.ShloMosaic.TcCoe
  Idealize.ShloMosaic.StableHlo Idealize.ShloMosaic.ValueIdx
open Cert

-- The stretch's last buffer holds GraphNorm's term of the buffers the stretch starts from.
theorem c4_v97 {F : FTy → Type} [FloatOps F] (Z : Valuation τ sig (Elt F)) :
    after (c4 (F := F)) Z (Proc.devRef .tc main_v97)
      = gnOut (Z (Proc.devRef .tc main_v68)) (prow 1 slices_S5x128_S1x128_1_0 (Z (Proc.devRef .tc main_arg4)))
          (prow 1 slices_S5x128_S1x128_1_0 (Z (Proc.devRef .tc main_arg5))) (prow 1 slices_S5x128_S1x128_1_0 (Z (Proc.devRef .tc main_arg6))) := by
  unfold gnOut gnStd gnDev gnMean colSum0 ccol bcol prow
  after_results_simp
  rfl

theorem R_gn1 (Z : Valuation τ sig (Elt Ideal)) (j : (Spec.Sh2 100000 128).Idx) :
    (after (c4 (F := Ideal)) Z (Proc.devRef .tc main_v97) : Spec.Mat 100000 128) j
      = GnSpec.twoPass (fun p => (Z (Proc.devRef .tc main_v68) : Spec.Mat 100000 128) (ix2 p (Spec.c2 j)))
          ((Z (Proc.devRef .tc main_arg4) : Spec.Mat 5 128) (ix2 (1 : Fin 5) (Spec.c2 j))) ((Z (Proc.devRef .tc main_arg5) : Spec.Mat 5 128) (ix2 (1 : Fin 5) (Spec.c2 j))) ((Z (Proc.devRef .tc main_arg6) : Spec.Mat 5 128) (ix2 (1 : Fin 5) (Spec.c2 j))) (Spec.r2 j) := by
  rw [c4_v97]
  exact gnOut_prow_apply _ _ _ _ 1 _ 1 rfl j

end Cert.ReferenceIdeal.RVal

end
-- ==== Proof.RefGn2.lean ====
import proofs.«415927_j1254130450626_1_alg».proof.Proof.RefChunks
import proofs.«415927_j1254130450626_1_alg».proof.Proof.RefCommonGn

noncomputable section

namespace Cert.ReferenceIdeal.RVal

open Cert.ReferenceIdeal Cert.ReferenceIdeal.Gen Cert.ReferenceIdeal.RawRun Idealize.ShloMosaic Idealize.ShloMosaic.TcCoe
  Idealize.ShloMosaic.StableHlo Idealize.ShloMosaic.ValueIdx
open Cert

-- The stretch's last buffer holds the maximum of GraphNorm's term, of the buffers the stretch starts from, and zero.
theorem c5_v127 {F : FTy → Type} [FloatOps F] (Z : Valuation τ sig (Elt F)) :
    after (c5 (F := F)) Z (Proc.devRef .tc main_v127)
      = maximumf (gnOut (Z (Proc.devRef .tc main_v97)) (prow 2 slices_S5x128_S1x128_2_0 (Z (Proc.devRef .tc main_arg4)))
          (prow 2 slices_S5x128_S1x128_2_0 (Z (Proc.devRef .tc main_arg5))) (prow 2 slices_S5x128_S1x128_2_0 (Z (Proc.devRef .tc main_arg6))))
          (broadcastInDim S100000x128 ![] bcast_S_S100000x128 (constant S_ .f32 0x00000000#32 : (⟨S_, .f32⟩ : BufTy).Contents (Elt F))) := by
  unfold gnOut gnStd gnDev gnMean colSum0 ccol bcol prow
  after_results_simp <;> (try simp only [TRef.ofBuf, TRef.toBuf, cast_eq]) <;> rfl

theorem zeros_apply (j : S100000x128.Idx) :
    broadcastInDim S100000x128 ![] bcast_S_S100000x128 (constant (F := Ideal) S_ .f32 0x00000000#32) j = 0 :=
  Ideal.ofBits_zero_f32

theorem R_gn2 (Z : Valuation τ sig (Elt Ideal)) (j : (Spec.Sh2 100000 128).Idx) :
    (after (c5 (F := Ideal)) Z (Proc.devRef .tc main_v127) : Spec.Mat 100000 128) j
      = max (GnSpec.twoPass (fun p => (Z (Proc.devRef .tc main_v97) : Spec.Mat 100000 128) (ix2 p (Spec.c2 j)))
          ((Z (Proc.devRef .tc main_arg4) : Spec.Mat 5 128) (ix2 (2 : Fin 5) (Spec.c2 j))) ((Z (Proc.devRef .tc main_arg5) : Spec.Mat 5 128) (ix2 (2 : Fin 5) (Spec.c2 j))) ((Z (Proc.devRef .tc main_arg6) : Spec.Mat 5 128) (ix2 (2 : Fin 5) (Spec.c2 j))) (Spec.r2 j)) 0 := by
  rw [c5_v127, maximumf_apply, zeros_apply, gnOut_prow_apply _ _ _ _ 2 _ 2 rfl]

end Cert.ReferenceIdeal.RVal

end
-- ==== Proof.RefGn3.lean ====
import proofs.«415927_j1254130450626_1_alg».proof.Proof.RefChunks
import proofs.«415927_j1254130450626_1_alg».proof.Proof.RefCommonGn

noncomputable section

namespace Cert.ReferenceIdeal.RVal

open Cert.ReferenceIdeal Cert.ReferenceIdeal.Gen Cert.ReferenceIdeal.RawRun Idealize.ShloMosaic Idealize.ShloMosaic.TcCoe
  Idealize.ShloMosaic.StableHlo Idealize.ShloMosaic.ValueIdx
open Cert

-- The stretch's last buffer holds GraphNorm's term of the buffers the stretch starts from.
theorem c7_v169 {F : FTy → Type} [FloatOps F] (Z : Valuation τ sig (Elt F)) :
    after (c7 (F := F)) Z (Proc.devRef .tc main_v169)
      = gnOut (Z (Proc.devRef .tc main_v140)) (prow 3 slices_S5x128_S1x128_3_0 (Z (Proc.devRef .tc main_arg4)))
          (prow 3 slices_S5x128_S1x128_3_0 (Z (Proc.devRef .tc main_arg5))) (prow 3 slices_S5x128_S1x128_3_0 (Z (Proc.devRef .tc main_arg6))) := by
  unfold gnOut gnStd gnDev gnMean colSum0 ccol bcol prow
  after_results_simp
  rfl

theorem R_gn3 (Z : Valuation τ sig (Elt Ideal)) (j : (Spec.Sh2 100000 128).Idx) :
    (after (c7 (F := Ideal)) Z (Proc.devRef .tc main_v169) : Spec.Mat 100000 128) j
      = GnSpec.twoPass (fun p => (Z (Proc.devRef .tc main_v140) : Spec.Mat 100000 128) (ix2 p (Spec.c2 j)))
          ((Z (Proc.devRef .tc main_arg4) : Spec.Mat 5 128) (ix2 (3 : Fin 5) (Spec.c2 j))) ((Z (Proc.devRef .tc main_arg5) : Spec.Mat 5 128) (ix2 (3 : Fin 5) (Spec.c2 j))) ((Z (Proc.devRef .tc main_arg6) : Spec.Mat 5 128) (ix2 (3 : Fin 5) (Spec.c2 j))) (Spec.r2 j) := by
  rw [c7_v169]
  exact gnOut_prow_apply _ _ _ _ 3 _ 3 rfl j

end Cert.ReferenceIdeal.RVal

end
-- ==== Proof.RefGn4.lean ====
import proofs.«415927_j1254130450626_1_alg».proof.Proof.RefChunks
import proofs.«415927_j1254130450626_1_alg».proof.Proof.RefCommonGn

noncomputable section

namespace Cert.ReferenceIdeal.RVal

open Cert.ReferenceIdeal Cert.ReferenceIdeal.Gen Cert.ReferenceIdeal.RawRun Idealize.ShloMosaic Idealize.ShloMosaic.TcCoe
  Idealize.ShloMosaic.StableHlo Idealize.ShloMosaic.ValueIdx
open Cert

-- The stretch's last buffer holds GraphNorm's term of the buffers the stretch starts from.
theorem c8_v198 {F : FTy → Type} [FloatOps F] (Z : Valuation τ sig (Elt F)) :
    after (c8 (F := F)) Z (Proc.devRef .tc main_v198)
      = gnOut (Z (Proc.devRef .tc main_v169)) (prow 4 slices_S5x128_S1x128_4_0 (Z (Proc.devRef .tc main_arg4)))
          (prow 4 slices_S5x128_S1x128_4_0 (Z (Proc.devRef .tc main_arg5))) (prow 4 slices_S5x128_S1x128_4_0 (Z (Proc.devRef .tc main_arg6))) := by
  unfold gnOut gnStd gnDev gnMean colSum0 ccol bcol prow
  after_results_simp
  rfl

theorem R_gn4 (Z : Valuation τ sig (Elt Ideal)) (j : (Spec.Sh2 100000 128).Idx) :
    (after (c8 (F := Ideal)) Z (Proc.devRef .tc main_v198) : Spec.Mat 100000 128) j
      = GnSpec.twoPass (fun p => (Z (Proc.devRef .tc main_v169) : Spec.Mat 100000 128) (ix2 p (Spec.c2 j)))
          ((Z (Proc.devRef .tc main_arg4) : Spec.Mat 5 128) (ix2 (4 : Fin 5) (Spec.c2 j))) ((Z (Proc.devRef .tc main_arg5) : Spec.Mat 5 128) (ix2 (4 : Fin 5) (Spec.c2 j))) ((Z (Proc.devRef .tc main_arg6) : Spec.Mat 5 128) (ix2 (4 : Fin 5) (Spec.c2 j))) (Spec.r2 j) := by
  rw [c8_v198]
  exact gnOut_prow_apply _ _ _ _ 4 _ 4 rfl j

end Cert.ReferenceIdeal.RVal

end
-- ==== Proof.GnLits.lean ====
import Idealize.ShloMosaic.PureOps.Ideal
import proofs.«415927_j1254130450626_1_alg».proof.Proof.GnSpec

noncomputable section

namespace Cert.GnSpec

open Idealize.ShloMosaic

theorem NN_eq : NN = ((100000 : ℝ) : EReal) := by
  simp [Ideal.ofBits, Ideal.ieee, -EReal.coe_mul]; norm_num

theorem TWO_eq : TWO = ((2 : ℝ) : EReal) := by
  simp [Ideal.ofBits, Ideal.ieee, -EReal.coe_mul]; norm_num

theorem EPS_val : EPS = ((8796093 * (2 : ℝ) ^ (-43 : Int) : ℝ) : EReal) := by
  simp [Ideal.ofBits, Ideal.ieee, -EReal.coe_mul]

theorem EPS_eq : ∃ e : ℝ, 0 < e ∧ EPS = ((e : ℝ) : EReal) :=
  ⟨8796093 * (2 : ℝ) ^ (-43 : Int), by positivity, EPS_val⟩

end Cert.GnSpec

end
-- ==== Proof.GnMathFin.lean ====
import Idealize.ShloMosaic.PureOps.Ideal
import proofs.«415927_j1254130450626_1_alg».proof.Proof.GnSpec

noncomputable section

namespace Cert.GnSpec

open Idealize.ShloMosaic

theorem fin_coe_sum {ι : Type*} (t : Finset ι) (f : ι → ℝ) :
    (∑ q ∈ t, ((f q : ℝ) : EReal)) = ((∑ q ∈ t, f q : ℝ) : EReal) := by
  classical
  induction t using Finset.induction_on with
  | empty => simp
  | insert a t ha ih => rw [Finset.sum_insert ha, Finset.sum_insert ha, ih, EReal.coe_add]

theorem fin_sum_sq_dev (r : Fin 100000 → ℝ) (μ s : ℝ) (hμ : ∑ q, r q = 100000 * μ) :
    (∑ q, (r q - μ * s) * (r q - μ * s)) * (1 / 100000)
      = (∑ q, r q * r q) * (1 / 100000) + (μ * μ) * (s * s - 2 * s) := by
  have hexp : ∀ q, (r q - μ * s) * (r q - μ * s)
      = r q * r q - (2 * (μ * s)) * r q + (μ * s) * (μ * s) := fun q => by ring
  simp only [hexp, Finset.sum_add_distrib, Finset.sum_sub_distrib, ← Finset.mul_sum, Finset.sum_const,
    Finset.card_univ, Fintype.card_fin, nsmul_eq_mul, hμ]
  push_cast
  ring

theorem fin_affine_eq (x μ t w b s : ℝ) :
    x * (w * t) + (b - w * t * μ * s) = w * (x - μ * s) * t + b := by ring

theorem onePassG_eq_twoPassG_of_finite (e : ℝ) (he : 0 < e) (h : Fin 100000 → EReal)
    (hf : ∀ q, ∃ r : ℝ, h q = (r : EReal)) (w b s : ℝ) (p : Fin 100000) :
    onePassG ((100000 : ℝ) : EReal) (e : EReal) ((2 : ℝ) : EReal) h (w : EReal) (b : EReal) (s : EReal) p
      = twoPassG ((100000 : ℝ) : EReal) (e : EReal) h (w : EReal) (b : EReal) (s : EReal) p := by
  choose r hr using hf
  obtain rfl : h = fun q => ((r q : ℝ) : EReal) := funext hr
  have hN : (100000 : ℝ) ≠ 0 := by norm_num
  have hμ : ∑ q, r q = 100000 * ((∑ q, r q) * (1 / 100000)) := by ring
  have hv0 : 0 ≤ (∑ q, (r q - (∑ q, r q) * (1 / 100000) * s) * (r q - (∑ q, r q) * (1 / 100000) * s))
      * (1 / 100000) :=
    mul_nonneg (Finset.sum_nonneg fun q _ => mul_self_nonneg _) (by norm_num)
  have hve : ¬ ((∑ q, (r q - (∑ q, r q) * (1 / 100000) * s) * (r q - (∑ q, r q) * (1 / 100000) * s))
      * (1 / 100000) + e < 0) := not_lt.mpr (by linarith)
  have hσ0 : Real.sqrt ((∑ q, (r q - (∑ q, r q) * (1 / 100000) * s) * (r q - (∑ q, r q) * (1 / 100000) * s))
      * (1 / 100000) + e) ≠ 0 := (Real.sqrt_pos.mpr (by linarith)).ne'
  simp only [onePassG, twoPassG, zero_add, Ideal.div_coe hN, fin_coe_sum, ← EReal.coe_mul, ← EReal.coe_add,
    ← EReal.coe_sub]
  rw [← fin_sum_sq_dev r _ s hμ]
  simp only [Ideal.sqrt_coe, if_neg hve, Ideal.div_coe hσ0, ← EReal.coe_mul, ← EReal.coe_add, ← EReal.coe_sub]
  rw [EReal.coe_eq_coe_iff]
  exact fin_affine_eq _ _ _ _ _ _

end Cert.GnSpec

end
-- ==== Proof.GnMathInf.lean ====
import Idealize.ShloMosaic.PureOps.Ideal
import Mathlib.Data.EReal.Operations
import Mathlib.Data.EReal.Inv
import Mathlib.Algebra.BigOperators.Group.Finset.Basic
import proofs.«415927_j1254130450626_1_alg».proof.Proof.GnSpec

noncomputable section

namespace Cert.GnSpec

open Idealize.ShloMosaic

namespace InfCol

theorem sum_eq_bot_of_mem {ι : Type*} [DecidableEq ι] (S : Finset ι) (f : ι → EReal) {i : ι} (hi : i ∈ S) (hf : f i = ⊥) :
    ∑ j ∈ S, f j = ⊥ := by
  rw [← Finset.add_sum_erase S f hi, hf, EReal.bot_add]

theorem sum_ne_bot {ι : Type*} [DecidableEq ι] (S : Finset ι) (f : ι → EReal) (hf : ∀ j ∈ S, f j ≠ ⊥) :
    ∑ j ∈ S, f j ≠ ⊥ := by
  induction S using Finset.induction_on with
  | empty => simp
  | insert a S ha ih =>
    rw [Finset.sum_insert ha, EReal.add_ne_bot_iff]
    exact ⟨hf a (Finset.mem_insert_self a S), ih (fun j hj => hf j (Finset.mem_insert_of_mem hj))⟩

theorem sum_eq_top_of_mem {ι : Type*} [DecidableEq ι] (S : Finset ι) (f : ι → EReal) (hf : ∀ j ∈ S, f j ≠ ⊥)
    {i : ι} (hi : i ∈ S) (ht : f i = ⊤) : ∑ j ∈ S, f j = ⊤ := by
  rw [← Finset.add_sum_erase S f hi, ht]
  exact EReal.top_add_of_ne_bot (sum_ne_bot _ f (fun j hj => hf j (Finset.mem_of_mem_erase hj)))

def IsInf (x : EReal) : Prop := x = ⊤ ∨ x = ⊥

theorem sum_inf (h : Fin 100000 → EReal) (hi : ∃ q, IsInf (h q)) : IsInf (∑ q, h q) := by
  by_cases hb : ∃ q, h q = ⊥
  · obtain ⟨q, hq⟩ := hb
    exact Or.inr (sum_eq_bot_of_mem _ h (Finset.mem_univ q) hq)
  · have hnb : ∀ q, h q ≠ ⊥ := fun q hq => hb ⟨q, hq⟩
    obtain ⟨q, hq⟩ := hi
    rcases hq with hq | hq
    · exact Or.inl (sum_eq_top_of_mem _ h (fun j _ => hnb j) (Finset.mem_univ q) hq)
    · exact absurd hq (hnb q)

theorem mul_self_ne_bot (x : EReal) : x * x ≠ ⊥ := by
  have h0 : (0 : EReal) ≤ x * x := by
    rw [EReal.mul_nonneg_iff]
    rcases le_total 0 x with hx | hx
    · exact Or.inl ⟨hx, hx⟩
    · exact Or.inr ⟨hx, hx⟩
  intro hb
  rw [hb] at h0
  exact absurd h0 (not_le.2 EReal.bot_lt_zero)

theorem mul_self_of_inf {x : EReal} (hx : IsInf x) : x * x = ⊤ := by
  rcases hx with rfl | rfl
  · exact EReal.top_mul_top
  · exact EReal.bot_mul_bot

theorem sum_sq_eq_top (h : Fin 100000 → EReal) (hi : ∃ q, IsInf (h q)) : ∑ q, h q * h q = ⊤ := by
  obtain ⟨q, hq⟩ := hi
  exact sum_eq_top_of_mem _ (fun q => h q * h q) (fun j _ => mul_self_ne_bot (h j)) (Finset.mem_univ q) (mul_self_of_inf hq)

theorem div_top_pos (N : ℝ) (hN : 0 < N) : Ideal.div ⊤ (N : EReal) = ⊤ := by
  have h0 : (N : EReal) ≠ 0 := by
    rw [Ne, EReal.coe_eq_zero]; exact hN.ne'
  rw [Ideal.div, if_neg h0, ← EReal.coe_inv]
  exact EReal.top_mul_coe_of_pos (inv_pos.2 hN)

theorem div_bot_pos (N : ℝ) (hN : 0 < N) : Ideal.div ⊥ (N : EReal) = ⊥ := by
  have h0 : (N : EReal) ≠ 0 := by
    rw [Ne, EReal.coe_eq_zero]; exact hN.ne'
  rw [Ideal.div, if_neg h0, ← EReal.coe_inv]
  exact EReal.bot_mul_coe_of_pos (inv_pos.2 hN)

theorem div_inf_pos (N : ℝ) (hN : 0 < N) {x : EReal} (hx : IsInf x) : IsInf (Ideal.div x (N : EReal)) := by
  rcases hx with rfl | rfl
  · exact Or.inl (div_top_pos N hN)
  · exact Or.inr (div_bot_pos N hN)

theorem div_by_inf (x : EReal) {y : EReal} (hy : IsInf y) : Ideal.div x y = 0 := by
  rcases hy with rfl | rfl
  · rw [Ideal.div, if_neg EReal.top_ne_zero, EReal.inv_top, mul_zero]
  · rw [Ideal.div, if_neg EReal.bot_ne_zero, EReal.inv_bot, mul_zero]

theorem sqrt_inf {x : EReal} (hx : IsInf x) : IsInf (Ideal.sqrt x) := by
  rcases hx with rfl | rfl
  · exact Or.inl rfl
  · exact Or.inr rfl

theorem inf_add_coe {x : EReal} (hx : IsInf x) (e : ℝ) : IsInf (x + (e : EReal)) := by
  rcases hx with rfl | rfl
  · exact Or.inl (EReal.top_add_coe e)
  · exact Or.inr (EReal.bot_add _)

theorem top_add_top_mul_coe (r : ℝ) : IsInf ((⊤ : EReal) + ⊤ * (r : EReal)) := by
  rcases lt_trichotomy r 0 with hr | hr | hr
  · rw [EReal.top_mul_coe_of_neg hr]; exact Or.inr (EReal.add_bot _)
  · rw [hr, EReal.coe_zero, mul_zero, add_zero]; exact Or.inl rfl
  · rw [EReal.top_mul_coe_of_pos hr]; exact Or.inl EReal.top_add_top

theorem inf_mul_coe {x : EReal} (hx : IsInf x) {s : ℝ} (hs : s ≠ 0) : IsInf (x * (s : EReal)) := by
  rcases lt_or_gt_of_ne hs with hs | hs
  · rcases hx with rfl | rfl
    · exact Or.inr (EReal.top_mul_coe_of_neg hs)
    · exact Or.inl (EReal.bot_mul_coe_of_neg hs)
  · rcases hx with rfl | rfl
    · exact Or.inl (EReal.top_mul_coe_of_pos hs)
    · exact Or.inr (EReal.bot_mul_coe_of_pos hs)

theorem sub_inf (x : EReal) {m : EReal} (hm : IsInf m) : IsInf (x - m) := by
  rcases hm with rfl | rfl
  · exact Or.inr (EReal.sub_top x)
  · by_cases hx : x = ⊥
    · rw [hx]; exact Or.inr (EReal.bot_sub _)
    · exact Or.inl (EReal.sub_bot hx)

end InfCol

open InfCol

theorem onePassG_of_infinite (N e : ℝ) (hN : 0 < N) (t : ℝ) (h : Fin 100000 → EReal) (hi : ∃ q, h q = ⊤ ∨ h q = ⊥)
    (w b s : ℝ) (p : Fin 100000) :
    onePassG (N : EReal) (e : EReal) (t : EReal) h (w : EReal) (b : EReal) (s : EReal) p = (b : EReal) := by
  have hmean : IsInf (Ideal.div (∑ q, h q) (N : EReal)) := div_inf_pos N hN (sum_inf h hi)
  have hρ : (s : EReal) * (s : EReal) - (t : EReal) * (s : EReal) = ((s * s - t * s : ℝ) : EReal) := by
    rw [EReal.coe_sub, EReal.coe_mul, EReal.coe_mul]
  have hstd : IsInf (Ideal.sqrt (Ideal.div (∑ q, h q * h q) (N : EReal)
      + (Ideal.div (∑ q, h q) (N : EReal) * Ideal.div (∑ q, h q) (N : EReal)) * ((s : EReal) * (s : EReal) - (t : EReal) * (s : EReal))
      + (e : EReal))) := by
    rw [sum_sq_eq_top h hi, div_top_pos N hN, mul_self_of_inf hmean, hρ]
    exact sqrt_inf (inf_add_coe (top_add_top_mul_coe _) e)
  unfold onePassG
  simp only []
  rw [div_by_inf _ hstd, zero_mul, zero_mul, mul_zero, zero_add, sub_zero]

theorem twoPassG_of_infinite (N e : ℝ) (hN : 0 < N) (h : Fin 100000 → EReal) (hi : ∃ q, h q = ⊤ ∨ h q = ⊥) (w b s : ℝ)
    (p : Fin 100000) :
    twoPassG (N : EReal) (e : EReal) h (w : EReal) (b : EReal) (s : EReal) p = (b : EReal) := by
  have hmean : IsInf (Ideal.div (0 + ∑ q, h q) (N : EReal)) := by
    rw [zero_add]; exact div_inf_pos N hN (sum_inf h hi)
  have ho : ∃ q, IsInf (h q - Ideal.div (0 + ∑ q, h q) (N : EReal) * (s : EReal)) := by
    by_cases hs : s = 0
    · obtain ⟨q, hq⟩ := hi
      refine ⟨q, ?_⟩
      rw [hs, EReal.coe_zero, mul_zero, sub_zero]; exact hq
    · exact ⟨p, sub_inf _ (inf_mul_coe hmean hs)⟩
  have hstd : Ideal.sqrt (Ideal.div (0 + ∑ q, (h q - Ideal.div (0 + ∑ q, h q) (N : EReal) * (s : EReal))
      * (h q - Ideal.div (0 + ∑ q, h q) (N : EReal) * (s : EReal))) (N : EReal) + (e : EReal)) = ⊤ := by
    rw [sum_sq_eq_top _ ho, zero_add, div_top_pos N hN, EReal.top_add_coe]; rfl
  unfold twoPassG
  simp only []
  rw [hstd, div_by_inf _ (Or.inl rfl), zero_add]

end Cert.GnSpec

end
-- ==== Proof.GnMath.lean ====
import proofs.«415927_j1254130450626_1_alg».proof.Proof.GnLits
import proofs.«415927_j1254130450626_1_alg».proof.Proof.GnMathFin
import proofs.«415927_j1254130450626_1_alg».proof.Proof.GnMathInf

noncomputable section

namespace Cert.GnSpec

open Idealize.ShloMosaic

theorem exists_coe_of_ne_top_of_ne_bot (x : EReal) (ht : x ≠ ⊤) (hb : x ≠ ⊥) : ∃ r : ℝ, x = (r : EReal) := by
  induction x using EReal.rec with
  | bot => exact absurd rfl hb
  | coe r => exact ⟨r, rfl⟩
  | top => exact absurd rfl ht

theorem onePass_eq_twoPass (h : Fin 100000 → EReal) (w b s : ℝ) (p : Fin 100000) :
    onePass h (w : EReal) (b : EReal) (s : EReal) p = twoPass h (w : EReal) (b : EReal) (s : EReal) p := by
  obtain ⟨e, he, hE⟩ := EPS_eq
  unfold onePass twoPass
  rw [NN_eq, TWO_eq, hE]
  by_cases hi : ∃ q, h q = ⊤ ∨ h q = ⊥
  · rw [onePassG_of_infinite 100000 e (by norm_num) 2 h hi w b s p,
      twoPassG_of_infinite 100000 e (by norm_num) h hi w b s p]
  · refine onePassG_eq_twoPassG_of_finite e he h (fun q => ?_) w b s p
    exact exists_coe_of_ne_top_of_ne_bot (h q) (fun ht => hi ⟨q, Or.inl ht⟩) (fun hb => hi ⟨q, Or.inr hb⟩)

end Cert.GnSpec

end
-- ==== Proof.GnStage.lean ====
import proofs.«415927_j1254130450626_1_alg».proof.Proof.Spec
import proofs.«415927_j1254130450626_1_alg».proof.Proof.GnMath

noncomputable section

namespace Cert.GnSpec

open Idealize.ShloMosaic Idealize.ShloMosaic.ValueIdx

theorem stage (H : Spec.Mat 100000 128) (GW GB GS : Spec.Mat 5 128) (k : Fin 5)
    (hw : ∀ i, ∃ r : ℝ, GW i = (r : EReal)) (hb : ∀ i, ∃ r : ℝ, GB i = (r : EReal)) (hs : ∀ i, ∃ r : ℝ, GS i = (r : EReal))
    (j : (Spec.Sh2 100000 128).Idx) :
    onePass (fun p => H (ix2 p (Spec.c2 j))) (GW (ix2 k (Spec.c2 j))) (GB (ix2 k (Spec.c2 j))) (GS (ix2 k (Spec.c2 j))) (Spec.r2 j)
      = twoPass (fun p => H (ix2 p (Spec.c2 j))) (GW (ix2 k (Spec.c2 j))) (GB (ix2 k (Spec.c2 j))) (GS (ix2 k (Spec.c2 j))) (Spec.r2 j) := by
  obtain ⟨w, hw⟩ := hw (ix2 k (Spec.c2 j))
  obtain ⟨b, hb⟩ := hb (ix2 k (Spec.c2 j))
  obtain ⟨s, hs⟩ := hs (ix2 k (Spec.c2 j))
  rw [hw, hb, hs]
  exact onePass_eq_twoPass _ w b s _

end Cert.GnSpec

end
-- ==== Proof.Stages.lean ====
import proofs.«415927_j1254130450626_1_alg».proof.Proof.Gen.KernelIdeal.Frame
import proofs.«415927_j1254130450626_1_alg».proof.Proof.KLayer0
import proofs.«415927_j1254130450626_1_alg».proof.Proof.KLayer1
import proofs.«415927_j1254130450626_1_alg».proof.Proof.KLayer2
import proofs.«415927_j1254130450626_1_alg».proof.Proof.KLayer3
import proofs.«415927_j1254130450626_1_alg».proof.Proof.KLayer4
import proofs.«415927_j1254130450626_1_alg».proof.Proof.KLayerIdx
import proofs.«415927_j1254130450626_1_alg».proof.Proof.RefGn0
import proofs.«415927_j1254130450626_1_alg».proof.Proof.RefGn1
import proofs.«415927_j1254130450626_1_alg».proof.Proof.RefGn2
import proofs.«415927_j1254130450626_1_alg».proof.Proof.RefGn3
import proofs.«415927_j1254130450626_1_alg».proof.Proof.RefGn4
import proofs.«415927_j1254130450626_1_alg».proof.Proof.GnStage

set_option maxRecDepth 16384

noncomputable section

namespace Cert.Asm
open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (Z : Valuation Cert.ReferenceIdeal.τ Cert.ReferenceIdeal.sig (Elt Ideal))
  (h4 : ∀ i, (Z (Proc.devRef .tc Cert.ReferenceIdeal.main_arg4) : Spec.Mat 5 128) i = (m ((c : Thread Cert.KernelIdeal.nD Cert.KernelIdeal.τ).loc Cert.KernelIdeal.main_arg4) : Spec.Mat 5 128) i)
  (h5 : ∀ i, (Z (Proc.devRef .tc Cert.ReferenceIdeal.main_arg5) : Spec.Mat 5 128) i = (m ((c : Thread Cert.KernelIdeal.nD Cert.KernelIdeal.τ).loc Cert.KernelIdeal.main_arg5) : Spec.Mat 5 128) i)
  (h6 : ∀ i, (Z (Proc.devRef .tc Cert.ReferenceIdeal.main_arg6) : Spec.Mat 5 128) i = (m ((c : Thread Cert.KernelIdeal.nD Cert.KernelIdeal.τ).loc Cert.KernelIdeal.main_arg6) : Spec.Mat 5 128) i)
  (hw : ∀ i, ∃ r : ℝ, (m ((c : Thread Cert.KernelIdeal.nD Cert.KernelIdeal.τ).loc Cert.KernelIdeal.main_arg4) : Spec.Mat 5 128) i = (r : EReal))
  (hb : ∀ i, ∃ r : ℝ, (m ((c : Thread Cert.KernelIdeal.nD Cert.KernelIdeal.τ).loc Cert.KernelIdeal.main_arg5) : Spec.Mat 5 128) i = (r : EReal))
  (hs : ∀ i, ∃ r : ℝ, (m ((c : Thread Cert.KernelIdeal.nD Cert.KernelIdeal.τ).loc Cert.KernelIdeal.main_arg6) : Spec.Mat 5 128) i = (r : EReal))
include h4 h5 h6 hw hb hs

-- Each GraphNorm layer: the kernel's boundary array equals the reference stretch's result, given equal inputs and equal, real parameter arrays.
theorem stageGN0
    (hin : ∀ j, (Cert.KernelIdeal.Gen.W8 (F := Ideal) m ρ c (Proc.devRef .tc Cert.KernelIdeal.main_v23) : Spec.Mat 100000 128) j = (Z (Proc.devRef .tc Cert.ReferenceIdeal.main_v26) : Spec.Mat 100000 128) j) :
    ∀ j, (Cert.KernelIdeal.Gen.W13 (F := Ideal) m ρ c (Proc.devRef .tc Cert.KernelIdeal.main_v54) : Spec.Mat 100000 128) j
      = (after (Cert.ReferenceIdeal.RawRun.c2 (F := Ideal)) Z (Proc.devRef .tc Cert.ReferenceIdeal.main_v55) : Spec.Mat 100000 128) j := by
  intro j
  rw [Cert.KernelIdeal.Val.K_layer0 m ρ c, Cert.KernelIdeal.Val.klayer_apply, Cert.KernelIdeal.Val.rowT0_apply, Cert.KernelIdeal.Val.rowT0_apply, Cert.KernelIdeal.Val.rowT0_apply,
    Cert.ReferenceIdeal.RVal.R_gn0 Z j, h4, h5, h6]
  have hcol : (fun p : Fin 100000 => (Z (Proc.devRef .tc Cert.ReferenceIdeal.main_v26) : Spec.Mat 100000 128) (ix2 p (Spec.c2 j)))
      = fun p => (Cert.KernelIdeal.Gen.W8 (F := Ideal) m ρ c (Proc.devRef .tc Cert.KernelIdeal.main_v23) : Spec.Mat 100000 128) (ix2 p (Spec.c2 j)) :=
    funext fun p => (hin _).symm
  rw [hcol]
  exact GnSpec.stage _ _ _ _ 0 hw hb hs j

theorem stageGN1
    (hin : ∀ j, (Cert.KernelIdeal.Gen.W13 (F := Ideal) m ρ c (Proc.devRef .tc Cert.KernelIdeal.main_v67) : Spec.Mat 100000 128) j = (Z (Proc.devRef .tc Cert.ReferenceIdeal.main_v68) : Spec.Mat 100000 128) j) :
    ∀ j, (Cert.KernelIdeal.Gen.W18 (F := Ideal) m ρ c (Proc.devRef .tc Cert.KernelIdeal.main_v98) : Spec.Mat 100000 128) j
      = (after (Cert.ReferenceIdeal.RawRun.c4 (F := Ideal)) Z (Proc.devRef .tc Cert.ReferenceIdeal.main_v97) : Spec.Mat 100000 128) j := by
  intro j
  rw [Cert.KernelIdeal.Val.K_layer1 m ρ c, Cert.KernelIdeal.Val.klayer_apply, Cert.KernelIdeal.Val.rowT1_apply, Cert.KernelIdeal.Val.rowT1_apply, Cert.KernelIdeal.Val.rowT1_apply,
    Cert.ReferenceIdeal.RVal.R_gn1 Z j, h4, h5, h6]
  have hcol : (fun p : Fin 100000 => (Z (Proc.devRef .tc Cert.ReferenceIdeal.main_v68) : Spec.Mat 100000 128) (ix2 p (Spec.c2 j)))
      = fun p => (Cert.KernelIdeal.Gen.W13 (F := Ideal) m ρ c (Proc.devRef .tc Cert.KernelIdeal.main_v67) : Spec.Mat 100000 128) (ix2 p (Spec.c2 j)) :=
    funext fun p => (hin _).symm
  rw [hcol]
  exact GnSpec.stage _ _ _ _ 1 hw hb hs j

theorem stageGN2
    (hin : ∀ j, (Cert.KernelIdeal.Gen.W18 (F := Ideal) m ρ c (Proc.devRef .tc Cert.KernelIdeal.main_v98) : Spec.Mat 100000 128) j = (Z (Proc.devRef .tc Cert.ReferenceIdeal.main_v97) : Spec.Mat 100000 128) j) :
    ∀ j, (Cert.KernelIdeal.Gen.W23 (F := Ideal) m ρ c (Proc.devRef .tc Cert.KernelIdeal.main_v129) : Spec.Mat 100000 128) j
      = (after (Cert.ReferenceIdeal.RawRun.c5 (F := Ideal)) Z (Proc.devRef .tc Cert.ReferenceIdeal.main_v127) : Spec.Mat 100000 128) j := by
  intro j
  rw [Cert.KernelIdeal.Val.K_layer2 m ρ c, Cert.KernelIdeal.Val.klayerRelu_apply, Cert.KernelIdeal.Val.rowT2_apply, Cert.KernelIdeal.Val.rowT2_apply, Cert.KernelIdeal.Val.rowT2_apply,
    Cert.ReferenceIdeal.RVal.R_gn2 Z j, h4, h5, h6]
  have hcol : (fun p : Fin 100000 => (Z (Proc.devRef .tc Cert.ReferenceIdeal.main_v97) : Spec.Mat 100000 128) (ix2 p (Spec.c2 j)))
      = fun p => (Cert.KernelIdeal.Gen.W18 (F := Ideal) m ρ c (Proc.devRef .tc Cert.KernelIdeal.main_v98) : Spec.Mat 100000 128) (ix2 p (Spec.c2 j)) :=
    funext fun p => (hin _).symm
  rw [hcol]
  exact congrArg (fun x : EReal => max x 0) (GnSpec.stage _ _ _ _ 2 hw hb hs j)

theorem stageGN3
    (hin : ∀ j, (Cert.KernelIdeal.Gen.W23 (F := Ideal) m ρ c (Proc.devRef .tc Cert.KernelIdeal.main_v142) : Spec.Mat 100000 128) j = (Z (Proc.devRef .tc Cert.ReferenceIdeal.main_v140) : Spec.Mat 100000 128) j) :
    ∀ j, (Cert.KernelIdeal.Gen.W28 (F := Ideal) m ρ c (Proc.devRef .tc Cert.KernelIdeal.main_v173) : Spec.Mat 100000 128) j
      = (after (Cert.ReferenceIdeal.RawRun.c7 (F := Ideal)) Z (Proc.devRef .tc Cert.ReferenceIdeal.main_v169) : Spec.Mat 100000 128) j := by
  intro j
  rw [Cert.KernelIdeal.Val.K_layer3 m ρ c, Cert.KernelIdeal.Val.klayer_apply, Cert.KernelIdeal.Val.rowT3_apply, Cert.KernelIdeal.Val.rowT3_apply, Cert.KernelIdeal.Val.rowT3_apply,
    Cert.ReferenceIdeal.RVal.R_gn3 Z j, h4, h5, h6]
  have hcol : (fun p : Fin 100000 => (Z (Proc.devRef .tc Cert.ReferenceIdeal.main_v140) : Spec.Mat 100000 128) (ix2 p (Spec.c2 j)))
      = fun p => (Cert.KernelIdeal.Gen.W23 (F := Ideal) m ρ c (Proc.devRef .tc Cert.KernelIdeal.main_v142) : Spec.Mat 100000 128) (ix2 p (Spec.c2 j)) :=
    funext fun p => (hin _).symm
  rw [hcol]
  exact GnSpec.stage _ _ _ _ 3 hw hb hs j

theorem stageGN4
    (hin : ∀ j, (Cert.KernelIdeal.Gen.W28 (F := Ideal) m ρ c (Proc.devRef .tc Cert.KernelIdeal.main_v173) : Spec.Mat 100000 128) j = (Z (Proc.devRef .tc Cert.ReferenceIdeal.main_v169) : Spec.Mat 100000 128) j) :
    ∀ j, (Cert.KernelIdeal.Gen.W33 (F := Ideal) m ρ c (Proc.devRef .tc Cert.KernelIdeal.main_v204) : Spec.Mat 100000 128) j
      = (after (Cert.ReferenceIdeal.RawRun.c8 (F := Ideal)) Z (Proc.devRef .tc Cert.ReferenceIdeal.main_v198) : Spec.Mat 100000 128) j := by
  intro j
  rw [Cert.KernelIdeal.Val.K_layer4 m ρ c, Cert.KernelIdeal.Val.klayer_apply, Cert.KernelIdeal.Val.rowT4_apply, Cert.KernelIdeal.Val.rowT4_apply, Cert.KernelIdeal.Val.rowT4_apply,
    Cert.ReferenceIdeal.RVal.R_gn4 Z j, h4, h5, h6]
  have hcol : (fun p : Fin 100000 => (Z (Proc.devRef .tc Cert.ReferenceIdeal.main_v169) : Spec.Mat 100000 128) (ix2 p (Spec.c2 j)))
      = fun p => (Cert.KernelIdeal.Gen.W28 (F := Ideal) m ρ c (Proc.devRef .tc Cert.KernelIdeal.main_v173) : Spec.Mat 100000 128) (ix2 p (Spec.c2 j)) :=
    funext fun p => (hin _).symm
  rw [hcol]
  exact GnSpec.stage _ _ _ _ 4 hw hb hs j

end Cert.Asm

end
-- ==== Proof.LibRowGather.lean ====
import Idealize.ShloMosaic.PureOps.Ideal
import Idealize.ShloMosaic.Lib.ValueIdx
noncomputable section
namespace Idealize.ShloMosaic.RowGather
open Idealize.ShloMosaic Idealize.ShloMosaic.ValueIdx

/-- The dimension numbers of a gather of whole rows of an `[N, C]` table by an `[n, 1]` column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Such a gather at `(p, q)` is the table's entry in column `q` of the row the index names, clamped into `[0, N - 1]`. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  unfold Host.gather
  congr 1
  funext a
  refine Fin.ext ?_
  match a with
  | ⟨0, _⟩ =>
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.LibIndexWrap.lean ====
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.IndexWrap

open Idealize.ShloMosaic Idealize.ShloMosaic.ValueIdx

/-- A signed 32-bit index with `N` added when it is negative. -/
def wrapWord (N v : BitVec 32) : BitVec 32 := if v.slt 0#32 then v + N else v

/-- If `-N ≤ v < N` the wrapped index lies in `[0, N)`. -/
theorem wrapWord_range (N v : BitVec 32) (hN : N.toNat < 2 ^ 31)
    (h : -(N.toNat : ℤ) ≤ v.toInt ∧ v.toInt < (N.toNat : ℤ)) :
    0 ≤ (wrapWord N v).toInt ∧ (wrapWord N v).toInt < (N.toNat : ℤ) := by
  unfold wrapWord
  by_cases hn : v.slt 0#32
  · rw [if_pos hn]
    have hneg : v.toInt < 0 := by simpa [BitVec.slt] using hn
    have e1 := BitVec.toInt_eq_toNat_cond v
    have e2 := BitVec.toInt_eq_toNat_cond (v + N)
    have e3 : (v + N).toNat = (v.toNat + N.toNat) % 2 ^ 32 := by simp [BitVec.toNat_add]
    have hv := v.isLt
    split_ifs at e1 e2 <;> omega
  · rw [if_neg hn]
    have hneg : ¬ v.toInt < 0 := by simpa [BitVec.slt] using hn
    omega

/-- The compare, add and select that wrap a negative index, read at an index, are `wrapWord` of that entry. -/
theorem wrapped_apply {S : Shape} (h : (⟨0, ![]⟩ : Shape).BroadcastsInDim S ![]) (N : BitVec 32) (v : IVec S 32)
    (i : S.Idx) :
    select (cmpi .slt v (broadcastInDim S ![] h (constantI ⟨0, ![]⟩ 32 0#32)))
      (addi v (broadcastInDim S ![] h (constantI ⟨0, ![]⟩ 32 N))) v i = wrapWord N (v i) := by
  show Scalar.select (IntOp.cmpi .slt (v i) 0#32) (IntOp.addi (v i) N) (v i) = _
  unfold Scalar.select IntOp.cmpi IntOp.addi wrapWord
  cases hs : (v i).slt 0#32 <;> simp

/-- A vector laid out as an `[n, 1]` column, read at `(e, 0)`, is its entry `e`. -/
theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ hb v _ (ix1 e) fun a => ?_
  match a with
  | ⟨0, _⟩ =>
    show e.val = if n = 1 then 0 else e.val
    have := e.isLt
    split_ifs <;> omega

/-- A vector laid out as a `[1, n]` row and repeated down `B` rows, read at `(p, e)`, is its entry `e`. -/
theorem row_bcast_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α)
    (p : Fin B) (e : Fin n) :
    broadcastInDim ⟨2, ![B, n]⟩ ![0, 1] h₂ (broadcastInDim ⟨2, ![1, n]⟩ ![1] h₁ v) (ix2 p e) = v (ix1 e) := by
  refine (broadcastInDim_apply _ h₂ _ _ (ix2 (0 : Fin 1) e) fun a => ?_).trans
    (broadcastInDim_apply _ h₁ v _ (ix1 e) fun a => ?_)
  · match a with
    | ⟨0, _⟩ => rfl
    | ⟨1, _⟩ =>
      show e.val = if n = 1 then 0 else e.val
      have := e.isLt
      split_ifs <;> omega
  · match a with
    | ⟨0, _⟩ =>
      show e.val = if n = 1 then 0 else e.val
      have := e.isLt
      split_ifs <;> omega

/-- Column 0 of two `[n, 1]` columns joined along axis 1 is the first column. -/
theorem pair_fst {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h _ rfl _ fun b => ?_
  match b with
  | ⟨0, _⟩ => rfl
  | ⟨1, _⟩ => rfl

/-- Column 1 of two `[n, 1]` columns joined along axis 1 is the second column. -/
theorem pair_snd {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h _ rfl rfl _ (fun b hb => ?_) rfl
  match b with
  | ⟨0, _⟩ => rfl
  | ⟨1, _⟩ => exact absurd rfl hb

/-- A signed `≥` compare that yields 1 orders the two words' integer values. -/
theorem sge_decode (v k : BitVec 32) (h : IntOp.cmpi .sge v k = 1#1) : k.toInt ≤ v.toInt := by
  unfold IntOp.cmpi at h
  have h' := (StableHlo.Predicate.ofBool_eq_one_iff _).mp h
  simpa [BitVec.sle] using h'

/-- A signed `<` compare that yields 1 orders the two words' integer values. -/
theorem slt_decode (v k : BitVec 32) (h : IntOp.cmpi .slt v k = 1#1) : v.toInt < k.toInt := by
  unfold IntOp.cmpi at h
  have h' := (StableHlo.Predicate.ofBool_eq_one_iff _).mp h
  simpa [BitVec.slt] using h'

end Idealize.ShloMosaic.IndexWrap

end
-- ==== Proof.EmbBridge.lean ====
import proofs.«415927_j1254130450626_1_alg».proof.Proof.Gen.KernelIdeal.Launch
import proofs.«415927_j1254130450626_1_alg».proof.Proof.RefChunks
import proofs.«415927_j1254130450626_1_alg».proof.Proof.Spec
import proofs.«415927_j1254130450626_1_alg».proof.Proof.KTerms
import proofs.«415927_j1254130450626_1_alg».proof.Proof.LibRowGather
import proofs.«415927_j1254130450626_1_alg».proof.Proof.LibIndexWrap
import Idealize.ShloMosaic.Lib.StableHlo.Run
import Idealize.ShloMosaic.Lib.StableHlo.Predicate
import Idealize.ShloMosaic.Lib.Pipeline.Value
import Idealize.ShloMosaic.Lib.KernelVsHost
import Idealize.ShloMosaic.Lib.ValueIdx

set_option maxRecDepth 16384

noncomputable section

namespace Cert.EmbBridge.K

open Idealize.ShloMosaic Idealize.ShloMosaic.TcCoe Idealize.SL.Sem Idealize.ShloMosaic.StableHlo
open Cert.KernelIdeal Cert.KernelIdeal.Gen Cert.KernelIdeal.Val
open Idealize.ShloMosaic.ValueIdx

def padX (x : IVec S100000 32) : IVec S100352 32 :=
  pad S100352 ![0] ![352] ![0] x (constantI S_ 32 65#32) pads_S100000_S100352_03520 h_S_

def padE (E : C S65x128) : C S128x128 :=
  pad S128x128 ![0, 0] ![63, 0] ![0, 0] E (sitofp (F := Ideal) .f32 (constantI S_ 32 0#32)) pads_S65x128_S128x128_0630_000 h_S_

theorem padX_apply (x : IVec S100000 32) (r : Fin 100000) :
    padX x (ix1 (⟨r.val, by omega⟩ : Fin 100352)) = x (ix1 r) := by
  unfold padX
  refine pad_apply_of_inside _ _ _ x _ _ _ _ (ix1 r) fun a => ?_
  match a with
  | ⟨0, _⟩ => show r.val = 0 + r.val * (0 + 1); omega

theorem padE_apply (E : C S65x128) (k : Fin 65) (q : Fin 128) :
    padE E (ix2 (⟨k.val, by omega⟩ : Fin 128) q) = E (ix2 k q) := by
  unfold padE
  refine pad_apply_of_inside _ _ _ E _ _ _ _ (ix2 k q) fun a => ?_
  match a with
  | ⟨0, _⟩ => show k.val = 0 + k.val * (0 + 1); omega
  | ⟨1, _⟩ => show q.val = 0 + q.val * (0 + 1); omega

theorem sliceT_apply (X : C S100352x128) (r : Fin 100000) (q : Fin 128) :
    sliceT X (ix2 r q) = X (ix2 (⟨r.val, by omega⟩ : Fin 100352) q) := by
  unfold sliceT
  refine extractStridedSlice_apply _ X _ _ _ fun a => ?_
  match a with
  | ⟨0, _⟩ => show r.val = 0 + r.val; omega
  | ⟨1, _⟩ => show q.val = 0 + q.val; omega

theorem onehot_apply (x : (Spec.Sh1 100352).Idx → BitVec 32) (E : Spec.Mat 128 128) (r : Fin 100352) (q : Fin 128) :
    Spec.onehotMat x E (ix2 r q)
      = ∑ k : Fin 128, (if x (ix1 r) = BitVec.ofNat 32 k.val then (1 : EReal) else 0) * E (ix2 k q) := rfl

theorem ofNat_inj_small {a b : Nat} (ha : a < 128) (hb : b < 128) (h : BitVec.ofNat 32 a = BitVec.ofNat 32 b) : a = b := by
  have e := congrArg BitVec.toNat h
  rw [BitVec.toNat_ofNat, BitVec.toNat_ofNat] at e
  omega

theorem k_emb_coord (x : IVec S100000 32) (E : C S65x128) (p : Fin 100000) (q : Fin 128) (n : Fin 65)
    (hx : x (ix1 p) = BitVec.ofNat 32 n.val) :
    sliceT (Spec.onehotMat (padX x) (padE E)) (ix2 p q) = E (ix2 n q) := by
  rw [sliceT_apply, onehot_apply, padX_apply, hx,
    Finset.sum_eq_single (⟨n.val, by omega⟩ : Fin 128)
      (fun b _ hb => by
        rw [if_neg (fun e => hb (Fin.ext (ofNat_inj_small (by omega) b.isLt e).symm)), zero_mul])
      (fun h => absurd (Finset.mem_univ _) h),
    if_pos rfl, one_mul, padE_apply]

theorem ix2_r2_c2 {a b : Nat} (j : (Spec.Sh2 a b).Idx) : ix2 (Spec.r2 j) (Spec.c2 j) = j := by
  funext d
  match d with
  | ⟨0, _⟩ => rfl
  | ⟨1, _⟩ => rfl

theorem k_emb_apply (x : IVec S100000 32) (E : C S65x128) (j : (Spec.Sh2 100000 128).Idx) (n : Fin 65)
    (hx : x (ix1 (Spec.r2 j)) = BitVec.ofNat 32 n.val) :
    (sliceT (Spec.onehotMat (padX x) (padE E)) : Spec.Mat 100000 128) j = (E : Spec.Mat 65 128) (ix2 n (Spec.c2 j)) := by
  have h := k_emb_coord x E (Spec.r2 j) (Spec.c2 j) n hx
  rw [ix2_r2_c2] at h
  exact h

theorem pre_region0_v20 (Y : Valuation τ sig (Elt Ideal)) :
    after (hostOps0_5 (F := Ideal)) (after (hostOps0_4 (F := Ideal)) (after (hostOps0_3 (F := Ideal)) (after (hostOps0_2 (F := Ideal)) Y)))
        (Proc.devRef .tc main_v20) = padX (Y (Proc.devRef .tc main_arg0)) := by
  after_results
  rfl

theorem pre_region0_v21 (Y : Valuation τ sig (Elt Ideal)) :
    after (hostOps0_5 (F := Ideal)) (after (hostOps0_4 (F := Ideal)) (after (hostOps0_3 (F := Ideal)) (after (hostOps0_2 (F := Ideal)) Y)))
        (Proc.devRef .tc main_v21) = padE (Y (Proc.devRef .tc main_arg3)) := by
  after_results
  rfl

end Cert.EmbBridge.K

namespace Cert.EmbBridge.R

open Idealize.ShloMosaic Idealize.ShloMosaic.TcCoe Idealize.SL.Sem Idealize.ShloMosaic.StableHlo
open Cert.ReferenceIdeal Cert.ReferenceIdeal.Gen Cert.ReferenceIdeal.RawRun
open Idealize.ShloMosaic.ValueIdx

def wrapCol (x : IVec S100000 32) : IVec S100000x1 32 :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 65#32))) x)

theorem wrapWord_small (n : Fin 65) : IndexWrap.wrapWord 65#32 (BitVec.ofNat 32 n.val) = BitVec.ofNat 32 n.val := by
  have hi : (BitVec.ofNat 32 n.val).toInt = n.val := StableHlo.Predicate.toInt_ofNat_small n.val (by omega)
  have hs : (BitVec.ofNat 32 n.val).slt 0#32 = false := by
    rw [Bool.eq_false_iff]
    intro h
    have h' := BitVec.slt_iff_toInt_lt.1 h
    rw [hi, show (0#32 : BitVec 32).toInt = 0 from by decide] at h'
    omega
  unfold IndexWrap.wrapWord
  rw [hs]
  rfl

theorem wrapCol_apply (x : IVec S100000 32) (p : Fin 100000) (n : Fin 65) (hx : x (ix1 p) = BitVec.ofNat 32 n.val) :
    wrapCol x (ix2 p (0 : Fin 1)) = BitVec.ofNat 32 n.val := by
  unfold wrapCol
  rw [IndexWrap.column_apply, IndexWrap.wrapped_apply, hx, wrapWord_small]

theorem gather_coord (x : IVec S100000 32) (E : FVec Ideal S65x128 .f32) (p : Fin 100000) (q : Fin 128) (n : Fin 65)
    (hx : x (ix1 p) = BitVec.ofNat 32 n.val) :
    Host.gather gather_S65x128_S100000x1_S100000x128_1_0_n_n_0_1_1128 E (wrapCol x) (ix2 p q) = E (ix2 n q) := by
  have hG : gather_S65x128_S100000x1_S100000x128_1_0_n_n_0_1_1128
      = RowGather.rowDims 65 128 100000 gather_S65x128_S100000x1_S100000x128_1_0_n_n_0_1_1128_wf := rfl
  rw [hG, RowGather.rowGather_apply (by omega : 0 < 65)]
  refine congrArg (fun r : Fin 65 => E (ix2 r q)) (Fin.ext ?_)
  show min (wrapCol x (ix2 p (0 : Fin 1))).toInt.toNat (65 - 1) = n.val
  rw [wrapCol_apply x p n hx, StableHlo.Predicate.toInt_ofNat_small n.val (by omega)]
  omega

theorem c1_v26 (Z : Valuation τ sig (Elt Ideal)) :
    after (c1 (F := Ideal)) Z (Proc.devRef .tc main_v26)
      = Host.gather gather_S65x128_S100000x1_S100000x128_1_0_n_n_0_1_1128 (Z (Proc.devRef .tc main_arg3))
          (wrapCol (Z (Proc.devRef .tc main_arg0))) := by
  after_results
  rfl

theorem ref_emb_apply (Z : Valuation τ sig (Elt Ideal)) (j : (Spec.Sh2 100000 128).Idx) (n : Fin 65)
    (hx : (Z (Proc.devRef .tc main_arg0) : IVec S100000 32) (ix1 (Spec.r2 j)) = BitVec.ofNat 32 n.val) :
    (after (c1 (F := Ideal)) Z (Proc.devRef .tc main_v26) : Spec.Mat 100000 128) j
      = (Z (Proc.devRef .tc main_arg3) : Spec.Mat 65 128) (ix2 n (Spec.c2 j)) := by
  rw [c1_v26]
  have h := gather_coord (Z (Proc.devRef .tc main_arg0)) (Z (Proc.devRef .tc main_arg3)) (Spec.r2 j) (Spec.c2 j) n hx
  rw [Cert.EmbBridge.K.ix2_r2_c2] at h
  exact h

end Cert.EmbBridge.R

end
-- ==== Proof.RegEmb.lean ====
import proofs.«415927_j1254130450626_1_alg».proof.Proof.Gen.KernelIdeal.Frame
import proofs.«415927_j1254130450626_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem emb0_lhs_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl

theorem emb0_lhs_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q

theorem emb0_rhs_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q

theorem emb0_rhs_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem emb0_matmul_apply (L : FVec Ideal S2048x128 .bf16) (R : FVec Ideal S128x128 .bf16) (p : Fin 2048) (q : Fin 128) :
    matmul dot_S2048x128_S128x128_S2048x128_1_0_0_1_n_n none L R (constant (F := Ideal) S2048x128 .f32 0x00000000#32) (ix2 p q)
      = ∑ k : Fin 128, L (ix2 p k) * R (ix2 k q) := by
  show FloatOps.matmul dot_S2048x128_S128x128_S2048x128_1_0_0_1_n_n none L R (constant (F := Ideal) S2048x128 .f32 0x00000000#32) (ix2 p q) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact emb0_lhs_0 _ _
    | ⟨1, _⟩ => exact (emb0_lhs_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (emb0_rhs_0 _ _).trans hk
    | ⟨1, _⟩ => exact emb0_rhs_1 _ _)
  rw [el, er]

theorem emb0_cast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem emb0_bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem emb0_onehot_word (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  by_cases h : a = b
  · rw [IntOp.cmpi_eq.mpr h, if_pos h.symm]
    have e : ((1#1 : BitVec 1).setWidth 32).toInt = 1 := by decide
    rw [e, Int.cast_one, EReal.coe_one]
  · have h0 : IntOp.cmpi .eq a b = 0#1 := eq_zero_of_ne_one fun h1 => h (IntOp.cmpi_eq.mp h1)
    rw [h0, if_neg fun e => h e.symm]
    have e : ((0#1 : BitVec 1).setWidth 32).toInt = 0 := by decide
    rw [e, Int.cast_zero, EReal.coe_zero]

theorem emb0_onehot_apply (x0 : IVec S2048 32) (p : Fin 2048) (k : Fin 128) :
    (truncf (F := Ideal) .bf16 (sitofp (F := Ideal) .f32 (extui 32 (cmpi .eq (iota .tc S2048x128 32 [1] iota_S2048x128_d1_w32)
        (broadcastTo S2048x128 (shapeCast S2048x1 (shapeCast S2048 x0 shapeCasts_S2048_S2048) shapeCasts_S2048_S2048x1) broadcasts_S2048x1_S2048x128)) natLt_1_32)) bitsLt_bf16_f32) (ix2 p k)
      = if x0 (ix1 p) = BitVec.ofNat 32 k.val then (1 : EReal) else 0 := by
  show FloatOps.sitofp (F := Ideal) .f32 ((IntOp.cmpi .eq (iota .tc S2048x128 32 [1] iota_S2048x128_d1_w32 (ix2 p k))
      (broadcastTo S2048x128 (shapeCast S2048x1 (shapeCast S2048 x0 shapeCasts_S2048_S2048) shapeCasts_S2048_S2048x1) broadcasts_S2048x1_S2048x128 (ix2 p k))).setWidth 32) = _
  refine (emb0_onehot_word _ _).trans ?_
  rw [iota_single_apply, emb0_bcast_col_apply, emb0_cast_col_apply, shapeCast_self]

theorem emb0_table_apply (x1 : FVec Ideal S128x128 .f32) (k q : Fin 128) :
    (truncf (F := Ideal) .bf16 (shapeCast S128x128 x1 shapeCasts_S128x128_S128x128) bitsLt_bf16_f32) (ix2 k q) = x1 (ix2 k q) := by
  show shapeCast S128x128 x1 shapeCasts_S128x128_S128x128 (ix2 k q) = _
  rw [shapeCast_self]

theorem emb0_pay_apply (x0 : Vec Ideal S2048 .i32) (x1 : Vec Ideal S128x128 .f32) (p : Fin 2048) (q : Fin 128) :
    k0_pay1 (F := Ideal) x0 x1 (ix2 p q)
      = ∑ k : Fin 128, (if x0 (ix1 p) = BitVec.ofNat 32 k.val then (1 : EReal) else 0) * x1 (ix2 k q) := by
  unfold k0_pay1
  refine (emb0_matmul_apply _ _ p q).trans ?_
  refine Finset.sum_congr rfl fun k _ => ?_
  refine congrArg₂ (fun u v : EReal => u * v) ?_ ?_
  · exact emb0_onehot_apply x0 p k
  · exact emb0_table_apply x1 k q

theorem emb0_point (x0 : Vec Ideal S2048 .i32) (x1 : Vec Ideal S128x128 .f32)
    (X : (Spec.Sh1 100352).Idx → BitVec 32) (E : Spec.Mat 128 128) (y : S2048x128.Idx) (j : (Spec.Sh2 100352 128).Idx)
    (hx : ∀ p : Fin 2048, p.val = (y 0).val → x0 (ix1 p) = X (ix1 (Spec.r2 j)))
    (hE : ∀ (k q : Fin 128), q.val = (y 1).val → x1 (ix2 k q) = E (ix2 k (Spec.c2 j))) :
    k0_pay1 (F := Ideal) x0 x1 y = Spec.onehotMat X E j := by
  obtain ⟨p, q, rfl⟩ : ∃ (p : Fin 2048) (q : Fin 128), y = ix2 p q := ⟨y 0, y 1, eq_ix2 y⟩
  rw [emb0_pay_apply]
  unfold Spec.onehotMat
  refine Finset.sum_congr rfl fun k _ => ?_
  rw [hx p rfl, hE k q rfl]

theorem emb0_hz1 : (![0] : Fin 1 → Nat) = fun _ => 0 := funext fun a => match a with | ⟨0, _⟩ => rfl
theorem emb0_hz2 : (![0, 0] : Fin 2 → Nat) = fun _ => 0 := funext fun a => match a with | ⟨0, _⟩ => rfl | ⟨1, _⟩ => rfl

theorem emb0_idx_facts : ∀ t : Fin cfg0.N, win0_0.index t (0 : Fin 1) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem emb0_flushed_eq (c : Dev nD) (t : Fin cfg0.N) :
    (dat0 (F := Ideal) V c).flushed 2 t
      = ((cfg0.win 2).blk t).view.read (Elt Ideal) (Spec.onehotMat (V c main_v20) (V c main_v21)) := by
  show (cfg0.win 2).cut (grid0.coords t) ((dat0 (F := Ideal) V c).after 2 t) = _
  rw [after0_2]
  unfold out0_2
  rw [View.canon_unit_zero emb0_hz2]
  simp only [View.ld_unit_zero (S := S2048) emb0_hz1, View.ld_unit_zero (S := S128x128) emb0_hz2]
  obtain ⟨e0, e1, e2, e3, e4⟩ := emb0_idx_facts t
  funext y
  show k0_pay1 (F := Ideal) (iblk0 V c 0 t) (iblk0 V c 1 t) y
    = Spec.onehotMat (V c main_v20) (V c main_v21) (((cfg0.win 2).blk t).view.emb y)
  refine emb0_point (iblk0 V c 0 t) (iblk0 V c 1 t) (V c main_v20) (V c main_v21) y (((cfg0.win 2).blk t).view.emb y) ?_ ?_
  · intro p hp
    show V c main_v20 (((cfg0.win 0).blk t).view.emb (ix1 p)) = V c main_v20 (ix1 (Spec.r2 (a := 100352) (b := 128) (((cfg0.win 2).blk t).view.emb y)))
    refine congrArg (V c main_v20) (funext fun a => Fin.ext ?_)
    match a with
    | ⟨0, _⟩ =>
      show win0_0.index t (0 : Fin 1) * 2048 + 1 * p.val = win0_2.index t (0 : Fin 2) * 2048 + 1 * (y 0).val
      rw [e0, e3, hp]
  · intro k q hq
    show V c main_v21 (((cfg0.win 1).blk t).view.emb (ix2 k q)) = V c main_v21 (ix2 k (Spec.c2 (a := 100352) (b := 128) (((cfg0.win 2).blk t).view.emb y)))
    refine congrArg (V c main_v21) (funext fun a => Fin.ext ?_)
    match a with
    | ⟨0, _⟩ =>
      show win0_1.index t (0 : Fin 2) * 128 + 1 * k.val = k.val
      rw [e1]; omega
    | ⟨1, _⟩ =>
      show win0_1.index t (1 : Fin 2) * 128 + 1 * q.val = win0_2.index t (1 : Fin 2) * 128 + 1 * (y 1).val
      rw [e2, e4, hq]

theorem emb0_mem_blk (t : Fin cfg0.N) (i : S100352x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v22).slice (win0_2.rect t)).set ↔ _
  rw [View.set_slice_whole, Rect.mem_set_unit]
  exact Iff.rfl

theorem emb0_cover (i : S100352x128.Idx) :
    ∃ t : Fin cfg0.N, (cfg0.win 2).flush t = true ∧ i ∈ ((cfg0.win 2).blk t).view.set := by
  have hi0 : (i 0).val < 100352 := (i 0).isLt
  have hi1 : (i 1).val < 128 := (i 1).isLt
  have hN : cfg0.N = 49 := N_0
  obtain ⟨t, ht⟩ : ∃ t : Fin cfg0.N, t.val = (i 0).val / 2048 :=
    ⟨⟨(i 0).val / 2048, lt_of_lt_of_eq (by omega : (i 0).val / 2048 < 49) hN.symm⟩, rfl⟩
  obtain ⟨e0, e1, e2, e3, e4⟩ := emb0_idx_facts t
  refine ⟨t, flush0_2 t, ?_⟩
  rw [emb0_mem_blk]
  intro a
  match a with
  | ⟨0, _⟩ =>
    show win0_2.index t (0 : Fin 2) * 2048 ≤ (i 0).val ∧ (i 0).val < win0_2.index t (0 : Fin 2) * 2048 + 2048
    rw [e3, ht]; omega
  | ⟨1, _⟩ =>
    show win0_2.index t (1 : Fin 2) * 128 ≤ (i 1).val ∧ (i 1).val < win0_2.index t (1 : Fin 2) * 128 + 128
    rw [e4]; omega

theorem emb0_value (c : Dev nD) : ((dat0 (F := Ideal) V c).arrAt 2 cfg0.N : Spec.Mat 100352 128) = Spec.onehotMat (V c main_v20) (V c main_v21) :=
  (dat0 (F := Ideal) V c).arrAt_eq_of_cover 2 (Spec.onehotMat (V c main_v20) (V c main_v21)) (fun t _ => emb0_flushed_eq V c t) emb0_cover

end Cert.KernelIdeal.Val

end
-- ==== Proof.PreDecode.lean ====
import proofs.«415927_j1254130450626_1_alg».proof.Defs
import proofs.«415927_j1254130450626_1_alg».proof.Proof.Gen.Pre_finite_inputs
import Idealize.ShloMosaic.Lib.ReduceAll
import Idealize.ShloMosaic.Lib.ValueIdx
import Idealize.ShloMosaic.Lib.KernelVsHost

noncomputable section

namespace Cert.PreDecode

open Idealize.ShloMosaic Idealize.SL.Sem
open Idealize.ShloMosaic.ValueIdx

instance : Subsingleton (⟨0, ![]⟩ : Shape).Idx := ⟨fun a b => funext fun d => d.elim0⟩

theorem real_of_abs_lt_inf (x : Ideal .f32)
    (h : FloatOps.cmpf .olt (FloatOps.hostAbsf x) (FloatOps.ofBits (F := Ideal) .f32 0x7F800000#32) = 1#1) :
    ∃ r : ℝ, x = ((r : ℝ) : EReal) := by
  have h' : IntOp.xori (FloatOps.weird x) 1#1 = 1#1 := (Ideal.xori_weird_eq_hostAbsf_olt_inf x).trans h
  have hw : ¬ ((x : EReal) = ⊤ ∨ (x : EReal) = ⊥) := by
    intro hx
    have hone : FloatOps.weird x = 1#1 := by
      show BitVec.ofBool (decide ((x : EReal) = ⊤ ∨ (x : EReal) = ⊥)) = 1#1
      rw [decide_eq_true hx]; rfl
    rw [hone] at h'
    exact absurd h' (by decide)
  exact ⟨EReal.toReal x, (EReal.coe_toReal (fun e => hw (Or.inl e)) (fun e => hw (Or.inr e))).symm⟩

theorem word_range (w : BitVec 32) (h0 : IntOp.cmpi .sge w 0#32 = 1#1) (h1 : IntOp.cmpi .slt w 65#32 = 1#1) :
    ∃ n : Fin 65, w = BitVec.ofNat 32 n.val := by
  have g0 : (0#32 : BitVec 32).toInt ≤ w.toInt := IntOp.cmpi_sge.1 h0
  have g1 : w.toInt < (65#32 : BitVec 32).toInt := IntOp.cmpi_slt.1 h1
  have z : (0#32 : BitVec 32).toInt = 0 := by decide
  have s : (65#32 : BitVec 32).toInt = 65 := by decide
  rw [z] at g0
  rw [s] at g1
  have hpos : 2 * w.toNat < 2 ^ 32 := BitVec.toInt_pos_iff.1 g0
  rw [BitVec.toInt_eq_toNat_of_lt hpos] at g1
  have hn : w.toNat < 65 := by omega
  refine ⟨⟨w.toNat, hn⟩, ?_⟩
  show w = BitVec.ofNat 32 w.toNat
  apply BitVec.eq_of_toNat_eq
  rw [BitVec.toNat_ofNat]
  omega

theorem reals_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant ⟨0, ![]⟩ .f32 0x7F800000#32)))
          (constantI ⟨0, ![]⟩ 1 1#1) hr hu ix0 = 1#1) (i : s.Idx) :
    ∃ r : ℝ, x i = ((r : ℝ) : EReal) :=
  real_of_abs_lt_inf (x i) (Host.reduce_andi_all _ _ hr hu ix0 e i)

theorem range_of_all {s : Shape} {axes : List (Fin s.rank)} (x : IVec s 32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (andi (cmpi .sge x (broadcastInDim s ![] hb (constantI ⟨0, ![]⟩ 32 0#32)))
            (cmpi .slt x (broadcastInDim s ![] hb (constantI ⟨0, ![]⟩ 32 65#32))))
          (constantI ⟨0, ![]⟩ 1 1#1) hr hu ix0 = 1#1) (i : s.Idx) :
    ∃ n : Fin 65, x i = BitVec.ofNat 32 n.val := by
  have hi : IntOp.andi (IntOp.cmpi .sge (x i) 0#32) (IntOp.cmpi .slt (x i) 65#32) = 1#1 :=
    Host.reduce_andi_all _ _ hr hu ix0 e i
  obtain ⟨h0, h1⟩ := IntOp.andi_eq_one.1 hi
  exact word_range (x i) h0 h1

theorem decode (a0 : IVec Cert.Pre_finite_inputs.S100000 32) (a1 : IVec Cert.Pre_finite_inputs.S2x1600000 32)
    (a2 : FVec Ideal Cert.Pre_finite_inputs.S1600000 .f32) (a3 : FVec Ideal Cert.Pre_finite_inputs.S65x128 .f32)
    (a4 a5 a6 : FVec Ideal Cert.Pre_finite_inputs.S5x128 .f32)
    (h : Cert.Pre_finite_inputs.fn (F := Ideal) a0 a1 a2 a3 a4 a5 a6 = fun _ => 1#1) :
    (∀ i, ∃ n : Fin 65, a0 i = BitVec.ofNat 32 n.val) ∧ (∀ i, ∃ r : ℝ, a4 i = ((r : ℝ) : EReal))
      ∧ (∀ i, ∃ r : ℝ, a5 i = ((r : ℝ) : EReal)) ∧ (∀ i, ∃ r : ℝ, a6 i = ((r : ℝ) : EReal)) := by
  have e : Cert.Pre_finite_inputs.fn (F := Ideal) a0 a1 a2 a3 a4 a5 a6 ix0 = 1#1 := congrFun h ix0
  delta Cert.Pre_finite_inputs.fn at e
  delta Cert.Pre_finite_inputs.fn_part1 at e
  dsimp only at e
  obtain ⟨e5, h29⟩ := IntOp.andi_eq_one.1 e
  obtain ⟨e4, h22⟩ := IntOp.andi_eq_one.1 e5
  obtain ⟨e3, h17⟩ := IntOp.andi_eq_one.1 e4
  obtain ⟨e2, h12⟩ := IntOp.andi_eq_one.1 e3
  exact ⟨fun i => range_of_all a0 _ _ _ h29 i, fun i => reals_of_all a4 _ _ _ h12 i,
    fun i => reals_of_all a5 _ _ _ h17 i, fun i => reals_of_all a6 _ _ _ h22 i⟩

variable (m : (ℓ : Loc Cert.KernelIdeal.nD Cert.KernelIdeal.τ Cert.KernelIdeal.sig) → Buf (Elt Ideal) ℓ)
  (hpre : Cert.Pre_KernelIdeal (hPre_finite_inputs := Cert.Pre_finite_inputs.Gen.facts) m)
  (c : Dev Cert.KernelIdeal.nD)

include hpre

theorem x_range : ∀ i, ∃ n : Fin 65,
    m ((c.tc : Thread Cert.KernelIdeal.nD Cert.KernelIdeal.τ).loc Cert.KernelIdeal.main_arg0) i = BitVec.ofNat 32 n.val :=
  (decode _ _ _ _ _ _ _ (hpre c)).1

theorem gnw_real : ∀ i, ∃ r : ℝ,
    m ((c.tc : Thread Cert.KernelIdeal.nD Cert.KernelIdeal.τ).loc Cert.KernelIdeal.main_arg4) i = ((r : ℝ) : EReal) :=
  (decode _ _ _ _ _ _ _ (hpre c)).2.1

theorem gnb_real : ∀ i, ∃ r : ℝ,
    m ((c.tc : Thread Cert.KernelIdeal.nD Cert.KernelIdeal.τ).loc Cert.KernelIdeal.main_arg5) i = ((r : ℝ) : EReal) :=
  (decode _ _ _ _ _ _ _ (hpre c)).2.2.1

theorem gns_real : ∀ i, ∃ r : ℝ,
    m ((c.tc : Thread Cert.KernelIdeal.nD Cert.KernelIdeal.τ).loc Cert.KernelIdeal.main_arg6) i = ((r : ℝ) : EReal) :=
  (decode _ _ _ _ _ _ _ (hpre c)).2.2.2

end Cert.PreDecode

end
-- ==== Proof.StageEmb.lean ====
import proofs.«415927_j1254130450626_1_alg».proof.Proof.Gen.KernelIdeal.Frame
import proofs.«415927_j1254130450626_1_alg».proof.Proof.EmbBridge
import proofs.«415927_j1254130450626_1_alg».proof.Proof.RegEmb
import proofs.«415927_j1254130450626_1_alg».proof.Proof.KKeep
import proofs.«415927_j1254130450626_1_alg».proof.Proof.RefAt
import proofs.«415927_j1254130450626_1_alg».proof.Proof.PreDecode
import proofs.«415927_j1254130450626_1_alg».proof.Proof.Spec

set_option maxRecDepth 16384

noncomputable section

namespace Cert.Asm

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

section KSide

open Cert.KernelIdeal Cert.KernelIdeal.Gen Cert.KernelIdeal.Val Cert.EmbBridge.K

theorem stageEmb_W2_arg0 : W2 (F := Ideal) m ρ c (Proc.devRef .tc main_arg0) = m ((c : Thread nD τ).loc main_arg0) :=
  calc W2 (F := Ideal) m ρ c (Proc.devRef .tc main_arg0)
    _ = W1 m ρ c (Proc.devRef .tc main_arg0) := StableHlo.after_of_writes_sub (r := main_arg0) _ _ hostOps0_1_writes (by decide)
    _ = W0 m ρ c (Proc.devRef .tc main_arg0) := StableHlo.after_of_writes_sub (r := main_arg0) _ _ hostOps0_writes (by decide)
    _ = m ((c : Thread nD τ).loc main_arg0) := rfl

theorem stageEmb_W2_arg3 : W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := StableHlo.after_of_writes_sub (r := main_arg3) _ _ hostOps0_1_writes (by decide)
    _ = W0 m ρ c (Proc.devRef .tc main_arg3) := StableHlo.after_of_writes_sub (r := main_arg3) _ _ hostOps0_writes (by decide)
    _ = m ((c : Thread nD τ).loc main_arg3) := rfl

theorem stageEmb_W6_v20 : W6 (F := Ideal) m ρ c (Proc.devRef .tc main_v20) = padX (m ((c : Thread nD τ).loc main_arg0)) :=
  (pre_region0_v20 (W2 (F := Ideal) m ρ c)).trans (congrArg padX (stageEmb_W2_arg0 m ρ c))

theorem stageEmb_W6_v21 : W6 (F := Ideal) m ρ c (Proc.devRef .tc main_v21) = padE (m ((c : Thread nD τ).loc main_arg3)) :=
  (pre_region0_v21 (W2 (F := Ideal) m ρ c)).trans (congrArg padE (stageEmb_W2_arg3 m ρ c))

theorem stageEmb_W7_v22 : (W7 (F := Ideal) m ρ c (Proc.devRef .tc main_v22) : Spec.Mat 100352 128)
    = Spec.onehotMat (padX (m ((c : Thread nD τ).loc main_arg0))) (padE (m ((c : Thread nD τ).loc main_arg3))) :=
  calc (W7 (F := Ideal) m ρ c (Proc.devRef .tc main_v22) : Spec.Mat 100352 128)
    _ = ((dat0 (F := Ideal) (V6 m ρ) c).arrAt 2 cfg0.N : Spec.Mat 100352 128) := W7_arr m ρ c 2
    _ = Spec.onehotMat (V6 (F := Ideal) m ρ c main_v20) (V6 (F := Ideal) m ρ c main_v21) := emb0_value (V6 m ρ) c
    _ = Spec.onehotMat (padX (m ((c : Thread nD τ).loc main_arg0))) (padE (m ((c : Thread nD τ).loc main_arg3))) :=
        congrArg₂ Spec.onehotMat (stageEmb_W6_v20 m ρ c) (stageEmb_W6_v21 m ρ c)

theorem stageEmb_hostOps1_v23 (Y : Valuation τ sig (Elt Ideal)) :
    after (hostOps1 (F := Ideal)) Y (Proc.devRef .tc main_v23) = sliceT (Y (Proc.devRef .tc main_v22)) := by
  after_results
  rfl

theorem stageEmb_W8_v23 : (W8 (F := Ideal) m ρ c (Proc.devRef .tc main_v23) : Spec.Mat 100000 128)
    = sliceT (Spec.onehotMat (padX (m ((c : Thread nD τ).loc main_arg0))) (padE (m ((c : Thread nD τ).loc main_arg3)))) :=
  (stageEmb_hostOps1_v23 (W7 (F := Ideal) m ρ c)).trans (congrArg sliceT (stageEmb_W7_v22 m ρ c))

end KSide

theorem stageEmb (hpre : Cert.Pre_KernelIdeal (hPre_finite_inputs := Cert.Pre_finite_inputs.Gen.facts) m)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    ∀ j, (Cert.KernelIdeal.Gen.W8 (F := Ideal) m ρ c (Proc.devRef .tc Cert.KernelIdeal.main_v23) : Spec.Mat 100000 128) j = (Cert.ReferenceIdeal.RawRun.Z1 (F := Ideal) (launchContents m' c) (Proc.devRef .tc Cert.ReferenceIdeal.main_v26) : Spec.Mat 100000 128) j := by
  intro j

  obtain ⟨n, hn⟩ := Cert.PreDecode.x_range m hpre c (ix1 (Spec.r2 j))

  have eK : (Cert.KernelIdeal.Gen.W8 (F := Ideal) m ρ c (Proc.devRef .tc Cert.KernelIdeal.main_v23) : Spec.Mat 100000 128) j
      = (m ((c.tc : Thread Cert.KernelIdeal.nD Cert.KernelIdeal.τ).loc Cert.KernelIdeal.main_arg3) : Spec.Mat 65 128) (ix2 n (Spec.c2 j)) :=
    (congrFun (stageEmb_W8_v23 m ρ c) j).trans (Cert.EmbBridge.K.k_emb_apply _ _ j n hn)

  have h0 : Cert.ReferenceIdeal.RawRun.Z0 (F := Ideal) (launchContents m' c) (Proc.devRef .tc Cert.ReferenceIdeal.main_arg0)
      = m ((c.tc : Thread Cert.KernelIdeal.nD Cert.KernelIdeal.τ).loc Cert.KernelIdeal.main_arg0) :=
    (Cert.ReferenceIdeal.RawRun.Z0_arg0 (launchContents m' c)).trans a0
  have h3 : Cert.ReferenceIdeal.RawRun.Z0 (F := Ideal) (launchContents m' c) (Proc.devRef .tc Cert.ReferenceIdeal.main_arg3)
      = m ((c.tc : Thread Cert.KernelIdeal.nD Cert.KernelIdeal.τ).loc Cert.KernelIdeal.main_arg3) :=
    (Cert.ReferenceIdeal.RawRun.Z0_arg3 (launchContents m' c)).trans a3
  have hx : (Cert.ReferenceIdeal.RawRun.Z0 (F := Ideal) (launchContents m' c) (Proc.devRef .tc Cert.ReferenceIdeal.main_arg0) : IVec Cert.ReferenceIdeal.S100000 32) (ix1 (Spec.r2 j))
      = BitVec.ofNat 32 n.val := (congrFun h0 (ix1 (Spec.r2 j))).trans hn

  have eR := Cert.EmbBridge.R.ref_emb_apply (Cert.ReferenceIdeal.RawRun.Z0 (F := Ideal) (launchContents m' c)) j n hx
  exact eK.trans ((congrFun h3 (ix2 n (Spec.c2 j))).symm.trans eR.symm)

end Cert.Asm

end
-- ==== Proof.Shared.lean ====
import proofs.«415927_j1254130450626_1_alg».proof.Proof.Gen.KernelIdeal.Launch
import proofs.«415927_j1254130450626_1_alg».proof.Proof.RefChunks
import Idealize.ShloMosaic.Lib.StableHlo.Run

set_option maxRecDepth 16384

noncomputable section

namespace Cert.Shared

open Idealize.ShloMosaic Idealize.ShloMosaic.TcCoe Idealize.SL.Sem Idealize.ShloMosaic.StableHlo
open Cert.KernelIdeal Cert.KernelIdeal.Gen

variable {F : FTy → Type} [FloatOps F]

abbrev Arr (F : FTy → Type) (s : Shape) (e : EltTy) : Type := (⟨s, e⟩ : BufTy).Contents (Elt F)

def rowT (ei : Arr F S2x1600000 .i32) : Arr F S1600000 .i32 :=
  shapeCast S1600000 (extractStridedSlice S1x1600000 ![0, 0] ei slices_S2x1600000_S1x1600000_0_0) shapeCasts_S1x1600000_S1600000

def colT (ei : Arr F S2x1600000 .i32) : Arr F S1600000 .i32 :=
  shapeCast S1600000 (extractStridedSlice S1x1600000 ![1, 0] ei slices_S2x1600000_S1x1600000_1_0) shapeCasts_S1x1600000_S1600000

def wrapT (v : Arr F S1600000 .i32) : Arr F S1600000 .i32 :=
  select
    (cmpi .slt v
      (broadcastInDim S1600000 ![] bcast_S_S1600000 (constantI S_ 32 0#32)))
    (addi v
      (broadcastInDim S1600000 ![] bcast_S_S1600000 (constantI S_ 32 100000#32)))
    v

def degSumT (ew : Arr F S1600000 .f32) (ei : Arr F S2x1600000 .i32) : Arr F S100000 .f32 :=
  (fun x i u => Host.scatterAdd scatter_S100000_S1600000x1_S1600000_n_0_0_1 x i u)
    (broadcastInDim S100000 ![] bcast_S_S100000 (constant S_ .f32 0x00000000#32))
    (broadcastInDim S1600000x1 ![0] bcast_S1600000_S1600000x1_0 (rowT ei))
    ew

def degT (ew : Arr F S1600000 .f32) (ei : Arr F S2x1600000 .i32) : Arr F S100000 .f32 :=
  select
    (cmpf .olt (degSumT ew ei)
      (broadcastInDim S100000 ![] bcast_S_S100000 (constant S_ .f32 0x3F000000#32)))
    (addf (degSumT ew ei)
      (broadcastInDim S100000 ![] bcast_S_S100000 (constant S_ .f32 0x3F800000#32)))
    (degSumT ew ei)

def wnT (ew : Arr F S1600000 .f32) (ei : Arr F S2x1600000 .i32) : Arr F S1600000 .f32 :=
  Host.divf ew
    ((fun x i => Host.gather gather_S100000_S1600000x1_S1600000_n_0_n_n_0_1_1 x i)
      (degT ew ei)
      (broadcastInDim S1600000x1 ![0] bcast_S1600000_S1600000x1_0 (wrapT (rowT ei))))

def spmmT (h : Arr F S100000x128 .f32) (wn : Arr F S1600000 .f32) (row col : Arr F S1600000 .i32) : Arr F S100000x128 .f32 :=
  (fun x i u => Host.scatterAdd scatter_S100000x128_S1600000x1_S1600000x128_1_0_0_1 x i u)
    (broadcastInDim S100000x128 ![] bcast_S_S100000x128 (constant S_ .f32 0x00000000#32))
    (broadcastInDim S1600000x1 ![0] bcast_S1600000_S1600000x1_0 row)
    (mulf
      ((fun x i => Host.gather gather_S100000x128_S1600000x1_S1600000x128_1_0_n_n_0_1_1128 x i)
        h (broadcastInDim S1600000x1 ![0] bcast_S1600000_S1600000x1_0 (wrapT col)))
      ((broadcastInDim S1600000x128 ![0, 1] bcast_S1600000x1_S1600000x128_0_1)
        (broadcastInDim S1600000x1 ![0] bcast_S1600000_S1600000x1_0 wn)))

end Cert.Shared

namespace Cert.Shared.K

open Idealize.ShloMosaic Idealize.ShloMosaic.TcCoe Idealize.SL.Sem Idealize.ShloMosaic.StableHlo
open Cert.KernelIdeal Cert.KernelIdeal.Gen

variable {F : FTy → Type} [FloatOps F]

theorem row_eq (Y : Valuation τ sig (Elt F)) :
    after (hostOps0_2 (F := F)) (after (hostOps0_1 (F := F)) (after (hostOps0 (F := F)) Y)) (Proc.devRef .tc main_v1)
      = Cert.Shared.rowT (Y (Proc.devRef .tc main_arg1)) := by
  after_results
  try simp only [TRef.ofBuf, TRef.toBuf, cast_eq]
  rfl

theorem col_eq (Y : Valuation τ sig (Elt F)) :
    after (hostOps0_2 (F := F)) (after (hostOps0_1 (F := F)) (after (hostOps0 (F := F)) Y)) (Proc.devRef .tc main_v3)
      = Cert.Shared.colT (Y (Proc.devRef .tc main_arg1)) := by
  after_results
  try simp only [TRef.ofBuf, TRef.toBuf, cast_eq]
  rfl

set_option maxHeartbeats 1000000 in

theorem wn_eq (Y : Valuation τ sig (Elt F)) :
    after (hostOps0_2 (F := F)) (after (hostOps0_1 (F := F)) (after (hostOps0 (F := F)) Y)) (Proc.devRef .tc main_v19)
      = Cert.Shared.wnT (Y (Proc.devRef .tc main_arg2)) (Y (Proc.devRef .tc main_arg1)) := by
  after_results_simp
  try simp only [TRef.ofBuf, TRef.toBuf, cast_eq]
  rfl

set_option maxHeartbeats 1000000 in

theorem spmm3_eq (Y : Valuation τ sig (Elt F)) :
    after (hostOps3 (F := F)) Y (Proc.devRef .tc main_v67)
      = Cert.Shared.spmmT (extractStridedSlice S100000x128 ![0, 0] (Y (Proc.devRef .tc main_v53)) slices_S100352x128_S100000x128_0_0)
          (Y (Proc.devRef .tc main_v19)) (Y (Proc.devRef .tc main_v1)) (Y (Proc.devRef .tc main_v3)) := by
  after_results_simp
  rfl

set_option maxHeartbeats 1000000 in

theorem spmm7_eq (Y : Valuation τ sig (Elt F)) :
    after (hostOps7 (F := F)) Y (Proc.devRef .tc main_v142)
      = Cert.Shared.spmmT (extractStridedSlice S100000x128 ![0, 0] (Y (Proc.devRef .tc main_v128)) slices_S100352x128_S100000x128_0_0)
          (Y (Proc.devRef .tc main_v19)) (Y (Proc.devRef .tc main_v1)) (Y (Proc.devRef .tc main_v3)) := by
  after_results_simp
  rfl

end Cert.Shared.K

namespace Cert.Shared.R

open Idealize.ShloMosaic Idealize.ShloMosaic.TcCoe Idealize.SL.Sem Idealize.ShloMosaic.StableHlo
open Cert.ReferenceIdeal Cert.ReferenceIdeal.Gen Cert.ReferenceIdeal.RawRun

variable {F : FTy → Type} [FloatOps F]

theorem row_eq (Z : Valuation τ sig (Elt F)) :
    after (c0 (F := F)) Z (Proc.devRef .tc main_v1) = Cert.Shared.rowT (Z (Proc.devRef .tc main_arg1)) := by
  after_results
  try simp only [TRef.ofBuf, TRef.toBuf, cast_eq]
  rfl

theorem col_eq (Z : Valuation τ sig (Elt F)) :
    after (c0 (F := F)) Z (Proc.devRef .tc main_v3) = Cert.Shared.colT (Z (Proc.devRef .tc main_arg1)) := by
  after_results
  try simp only [TRef.ofBuf, TRef.toBuf, cast_eq]
  rfl

set_option maxHeartbeats 1000000 in

theorem wn_eq (Z : Valuation τ sig (Elt F)) :
    after (c0 (F := F)) Z (Proc.devRef .tc main_v19)
      = Cert.Shared.wnT (Z (Proc.devRef .tc main_arg2)) (Z (Proc.devRef .tc main_arg1)) := by
  after_results_simp
  try simp only [TRef.ofBuf, TRef.toBuf, cast_eq]
  rfl

set_option maxHeartbeats 1000000 in

theorem spmm3_eq (Z : Valuation τ sig (Elt F)) :
    after (c3 (F := F)) Z (Proc.devRef .tc main_v68)
      = Cert.Shared.spmmT (Z (Proc.devRef .tc main_v55)) (Z (Proc.devRef .tc main_v19)) (Z (Proc.devRef .tc main_v1)) (Z (Proc.devRef .tc main_v3)) := by
  after_results_simp
  rfl

set_option maxHeartbeats 1000000 in

theorem spmm6_eq (Z : Valuation τ sig (Elt F)) :
    after (c6 (F := F)) Z (Proc.devRef .tc main_v140)
      = Cert.Shared.spmmT (Z (Proc.devRef .tc main_v127)) (Z (Proc.devRef .tc main_v19)) (Z (Proc.devRef .tc main_v1)) (Z (Proc.devRef .tc main_v3)) := by
  after_results_simp
  rfl

end Cert.Shared.R

end
-- ==== Proof.StageSp.lean ====
import proofs.«415927_j1254130450626_1_alg».proof.Proof.Gen.KernelIdeal.Frame
import proofs.«415927_j1254130450626_1_alg».proof.Proof.Shared
import proofs.«415927_j1254130450626_1_alg».proof.Proof.KKeep
import proofs.«415927_j1254130450626_1_alg».proof.Proof.RefAt
import proofs.«415927_j1254130450626_1_alg».proof.Proof.Spec

set_option maxRecDepth 16384

noncomputable section

namespace Cert.Asm

open Idealize.ShloMosaic Idealize.ShloMosaic.TcCoe Idealize.SL.Sem Idealize.ShloMosaic.StableHlo Idealize.ShloMosaic.ValueIdx

theorem sp_slice3_eq {F : FTy → Type} [FloatOps F] (Y : Valuation Cert.KernelIdeal.τ Cert.KernelIdeal.sig (Elt F)) :
    after (Cert.KernelIdeal.Gen.hostOps3 (F := F)) Y (Proc.devRef .tc Cert.KernelIdeal.main_v54)
      = extractStridedSlice Cert.KernelIdeal.S100000x128 ![0, 0] (Y (Proc.devRef .tc Cert.KernelIdeal.main_v53)) Cert.KernelIdeal.Gen.slices_S100352x128_S100000x128_0_0 := by
  after_results_simp <;> rfl

theorem sp_slice7_eq {F : FTy → Type} [FloatOps F] (Y : Valuation Cert.KernelIdeal.τ Cert.KernelIdeal.sig (Elt F)) :
    after (Cert.KernelIdeal.Gen.hostOps7 (F := F)) Y (Proc.devRef .tc Cert.KernelIdeal.main_v129)
      = extractStridedSlice Cert.KernelIdeal.S100000x128 ![0, 0] (Y (Proc.devRef .tc Cert.KernelIdeal.main_v128)) Cert.KernelIdeal.Gen.slices_S100352x128_S100000x128_0_0 := by
  after_results_simp <;> rfl

theorem sp_congr {F : FTy → Type} [FloatOps F] {h h' : Cert.Shared.Arr F Cert.KernelIdeal.S100000x128 .f32} {wn wn' : Cert.Shared.Arr F Cert.KernelIdeal.S1600000 .f32}
    {row row' col col' : Cert.Shared.Arr F Cert.KernelIdeal.S1600000 .i32} (eh : h = h') (ewn : wn = wn') (erow : row = row') (ecol : col = col') :
    Cert.Shared.spmmT h wn row col = Cert.Shared.spmmT h' wn' row' col' := by
  subst eh ewn erow ecol; rfl

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD) (m' : (ℓ : Loc Cert.ReferenceIdeal.nD Cert.ReferenceIdeal.τ Cert.ReferenceIdeal.sig) → Buf (Elt Ideal) ℓ)
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

-- The kernel program's normalised weights, edge rows and edge columns at boundary 3, from the launch contents.
theorem sp_k3 :
    Cert.KernelIdeal.Gen.W3 (F := Ideal) m ρ c (Proc.devRef .tc Cert.KernelIdeal.main_v19) = Cert.Shared.wnT (m ((c.tc : Thread Cert.KernelIdeal.nD Cert.KernelIdeal.τ).loc Cert.KernelIdeal.main_arg2)) (m ((c.tc : Thread Cert.KernelIdeal.nD Cert.KernelIdeal.τ).loc Cert.KernelIdeal.main_arg1))
    ∧ Cert.KernelIdeal.Gen.W3 (F := Ideal) m ρ c (Proc.devRef .tc Cert.KernelIdeal.main_v1) = Cert.Shared.rowT (m ((c.tc : Thread Cert.KernelIdeal.nD Cert.KernelIdeal.τ).loc Cert.KernelIdeal.main_arg1))
    ∧ Cert.KernelIdeal.Gen.W3 (F := Ideal) m ρ c (Proc.devRef .tc Cert.KernelIdeal.main_v3) = Cert.Shared.colT (m ((c.tc : Thread Cert.KernelIdeal.nD Cert.KernelIdeal.τ).loc Cert.KernelIdeal.main_arg1)) :=
  ⟨Cert.Shared.K.wn_eq (Cert.KernelIdeal.Gen.W0 (F := Ideal) m ρ c), Cert.Shared.K.row_eq (Cert.KernelIdeal.Gen.W0 (F := Ideal) m ρ c), Cert.Shared.K.col_eq (Cert.KernelIdeal.Gen.W0 (F := Ideal) m ρ c)⟩

include a1 a2 in
-- The same three arrays after the reference's first stretch: equal launch contents give the same terms.
theorem sp_r0 :
    (Cert.ReferenceIdeal.RawRun.Z0 (F := Ideal) (launchContents m' c) (Proc.devRef .tc Cert.ReferenceIdeal.main_v19) : Cert.Shared.Arr Ideal Cert.KernelIdeal.S1600000 .f32) = Cert.Shared.wnT (m ((c.tc : Thread Cert.KernelIdeal.nD Cert.KernelIdeal.τ).loc Cert.KernelIdeal.main_arg2)) (m ((c.tc : Thread Cert.KernelIdeal.nD Cert.KernelIdeal.τ).loc Cert.KernelIdeal.main_arg1))
    ∧ (Cert.ReferenceIdeal.RawRun.Z0 (F := Ideal) (launchContents m' c) (Proc.devRef .tc Cert.ReferenceIdeal.main_v1) : Cert.Shared.Arr Ideal Cert.KernelIdeal.S1600000 .i32) = Cert.Shared.rowT (m ((c.tc : Thread Cert.KernelIdeal.nD Cert.KernelIdeal.τ).loc Cert.KernelIdeal.main_arg1))
    ∧ (Cert.ReferenceIdeal.RawRun.Z0 (F := Ideal) (launchContents m' c) (Proc.devRef .tc Cert.ReferenceIdeal.main_v3) : Cert.Shared.Arr Ideal Cert.KernelIdeal.S1600000 .i32) = Cert.Shared.colT (m ((c.tc : Thread Cert.KernelIdeal.nD Cert.KernelIdeal.τ).loc Cert.KernelIdeal.main_arg1)) := by
  have e1 : ((launchContents m' c) (Proc.devRef .tc Cert.ReferenceIdeal.main_arg1) : Cert.Shared.Arr Ideal Cert.KernelIdeal.S2x1600000 .i32) = (m ((c.tc : Thread Cert.KernelIdeal.nD Cert.KernelIdeal.τ).loc Cert.KernelIdeal.main_arg1)) := a1
  have e2 : ((launchContents m' c) (Proc.devRef .tc Cert.ReferenceIdeal.main_arg2) : Cert.Shared.Arr Ideal Cert.KernelIdeal.S1600000 .f32) = (m ((c.tc : Thread Cert.KernelIdeal.nD Cert.KernelIdeal.τ).loc Cert.KernelIdeal.main_arg2)) := a2
  exact ⟨(Cert.Shared.R.wn_eq (launchContents m' c)).trans (congrArg₂ Cert.Shared.wnT e2 e1), (Cert.Shared.R.row_eq (launchContents m' c)).trans (congrArg Cert.Shared.rowT e1),
    (Cert.Shared.R.col_eq (launchContents m' c)).trans (congrArg Cert.Shared.colT e1)⟩

include a1 a2 in
-- Both programs apply the same sparse product to equal operands.
theorem stageSp0
    (hin : ∀ j, (Cert.KernelIdeal.Gen.W13 (F := Ideal) m ρ c (Proc.devRef .tc Cert.KernelIdeal.main_v54) : Spec.Mat 100000 128) j = (Cert.ReferenceIdeal.RawRun.Z2 (F := Ideal) (launchContents m' c) (Proc.devRef .tc Cert.ReferenceIdeal.main_v55) : Spec.Mat 100000 128) j) :
    ∀ j, (Cert.KernelIdeal.Gen.W13 (F := Ideal) m ρ c (Proc.devRef .tc Cert.KernelIdeal.main_v67) : Spec.Mat 100000 128) j = (Cert.ReferenceIdeal.RawRun.Z3 (F := Ideal) (launchContents m' c) (Proc.devRef .tc Cert.ReferenceIdeal.main_v68) : Spec.Mat 100000 128) j := by
  obtain ⟨kw, kr, kc⟩ := sp_k3 m ρ c
  obtain ⟨zw, zr, zc⟩ := sp_r0 m c m' a1 a2
  have hA : (Cert.KernelIdeal.Gen.W13 (F := Ideal) m ρ c (Proc.devRef .tc Cert.KernelIdeal.main_v54) : Cert.Shared.Arr Ideal Cert.KernelIdeal.S100000x128 .f32)
      = (Cert.ReferenceIdeal.RawRun.Z2 (F := Ideal) (launchContents m' c) (Proc.devRef .tc Cert.ReferenceIdeal.main_v55) : Cert.Shared.Arr Ideal Cert.KernelIdeal.S100000x128 .f32) := funext hin
  have hK := (Cert.Shared.K.spmm3_eq (Cert.KernelIdeal.Gen.W12 (F := Ideal) m ρ c)).trans (sp_congr ((sp_slice3_eq (Cert.KernelIdeal.Gen.W12 (F := Ideal) m ρ c)).symm.trans hA)
    ((Cert.KernelIdeal.Val.W12_v19 m ρ c).trans kw) ((Cert.KernelIdeal.Val.W12_v1 m ρ c).trans kr) ((Cert.KernelIdeal.Val.W12_v3 m ρ c).trans kc))
  have hR := (Cert.Shared.R.spmm3_eq (Cert.ReferenceIdeal.RawRun.Z2 (F := Ideal) (launchContents m' c))).trans (sp_congr rfl
    ((Cert.ReferenceIdeal.RawRun.Z2_v19 (launchContents m' c)).trans zw) ((Cert.ReferenceIdeal.RawRun.Z2_v1 (launchContents m' c)).trans zr) ((Cert.ReferenceIdeal.RawRun.Z2_v3 (launchContents m' c)).trans zc))
  exact fun j => congrFun (hK.trans hR.symm) j

include a1 a2 in
theorem stageSp1
    (hin : ∀ j, (Cert.KernelIdeal.Gen.W23 (F := Ideal) m ρ c (Proc.devRef .tc Cert.KernelIdeal.main_v129) : Spec.Mat 100000 128) j = (Cert.ReferenceIdeal.RawRun.Z5 (F := Ideal) (launchContents m' c) (Proc.devRef .tc Cert.ReferenceIdeal.main_v127) : Spec.Mat 100000 128) j) :
    ∀ j, (Cert.KernelIdeal.Gen.W23 (F := Ideal) m ρ c (Proc.devRef .tc Cert.KernelIdeal.main_v142) : Spec.Mat 100000 128) j = (Cert.ReferenceIdeal.RawRun.Z6 (F := Ideal) (launchContents m' c) (Proc.devRef .tc Cert.ReferenceIdeal.main_v140) : Spec.Mat 100000 128) j := by
  obtain ⟨kw, kr, kc⟩ := sp_k3 m ρ c
  obtain ⟨zw, zr, zc⟩ := sp_r0 m c m' a1 a2
  have hA : (Cert.KernelIdeal.Gen.W23 (F := Ideal) m ρ c (Proc.devRef .tc Cert.KernelIdeal.main_v129) : Cert.Shared.Arr Ideal Cert.KernelIdeal.S100000x128 .f32)
      = (Cert.ReferenceIdeal.RawRun.Z5 (F := Ideal) (launchContents m' c) (Proc.devRef .tc Cert.ReferenceIdeal.main_v127) : Cert.Shared.Arr Ideal Cert.KernelIdeal.S100000x128 .f32) := funext hin
  have hK := (Cert.Shared.K.spmm7_eq (Cert.KernelIdeal.Gen.W22 (F := Ideal) m ρ c)).trans (sp_congr ((sp_slice7_eq (Cert.KernelIdeal.Gen.W22 (F := Ideal) m ρ c)).symm.trans hA)
    ((Cert.KernelIdeal.Val.W22_v19 m ρ c).trans kw) ((Cert.KernelIdeal.Val.W22_v1 m ρ c).trans kr) ((Cert.KernelIdeal.Val.W22_v3 m ρ c).trans kc))
  have hR := (Cert.Shared.R.spmm6_eq (Cert.ReferenceIdeal.RawRun.Z5 (F := Ideal) (launchContents m' c))).trans (sp_congr rfl
    ((Cert.ReferenceIdeal.RawRun.Z5_v19 (launchContents m' c)).trans zw) ((Cert.ReferenceIdeal.RawRun.Z5_v1 (launchContents m' c)).trans zr) ((Cert.ReferenceIdeal.RawRun.Z5_v3 (launchContents m' c)).trans zc))
  exact fun j => congrFun (hK.trans hR.symm) j

end Cert.Asm

end
-- ==== Proof.Final.lean ====
import proofs.«415927_j1254130450626_1_alg».proof.Proof.Stages
import proofs.«415927_j1254130450626_1_alg».proof.Proof.StageEmb
import proofs.«415927_j1254130450626_1_alg».proof.Proof.StageSp
import proofs.«415927_j1254130450626_1_alg».proof.Proof.RefAt
import proofs.«415927_j1254130450626_1_alg».proof.Proof.PreDecode

set_option maxRecDepth 16384

noncomputable section

namespace Cert.Asm
open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (m' : (ℓ : Loc Cert.ReferenceIdeal.nD Cert.ReferenceIdeal.τ Cert.ReferenceIdeal.sig) → Buf (Elt Ideal) ℓ)

theorem final_eq (hpre : Cert.Pre_KernelIdeal (hPre_finite_inputs := Cert.Pre_finite_inputs.Gen.facts) m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ∀ j, (Cert.KernelIdeal.Gen.W33 (F := Ideal) m ρ c (Proc.devRef .tc Cert.KernelIdeal.main_v204) : Spec.Mat 100000 128) j = (Cert.ReferenceIdeal.RawRun.Z8 (F := Ideal) (launchContents m' c) (Proc.devRef .tc Cert.ReferenceIdeal.main_v198) : Spec.Mat 100000 128) j := by
  obtain ⟨a0, a1, a2, a3, a4, a5, a6⟩ := hag
  have hw := Cert.PreDecode.gnw_real m hpre c
  have hb := Cert.PreDecode.gnb_real m hpre c
  have hs := Cert.PreDecode.gns_real m hpre c
  have q4 := congrFun (show ((launchContents m' c) (Proc.devRef .tc Cert.ReferenceIdeal.main_arg4) : Spec.Mat 5 128) = (m ((c : Thread Cert.KernelIdeal.nD Cert.KernelIdeal.τ).loc Cert.KernelIdeal.main_arg4) : Spec.Mat 5 128) from a4)
  have q5 := congrFun (show ((launchContents m' c) (Proc.devRef .tc Cert.ReferenceIdeal.main_arg5) : Spec.Mat 5 128) = (m ((c : Thread Cert.KernelIdeal.nD Cert.KernelIdeal.τ).loc Cert.KernelIdeal.main_arg5) : Spec.Mat 5 128) from a5)
  have q6 := congrFun (show ((launchContents m' c) (Proc.devRef .tc Cert.ReferenceIdeal.main_arg6) : Spec.Mat 5 128) = (m ((c : Thread Cert.KernelIdeal.nD Cert.KernelIdeal.τ).loc Cert.KernelIdeal.main_arg6) : Spec.Mat 5 128) from a6)
  have e0 := stageEmb m ρ c m' hpre a0 a3
  have e1 := stageGN0 m ρ c (Cert.ReferenceIdeal.RawRun.Z1 (F := Ideal) (launchContents m' c))
    (fun i => by rw [Cert.ReferenceIdeal.RawRun.Z1_arg4]; exact q4 i) (fun i => by rw [Cert.ReferenceIdeal.RawRun.Z1_arg5]; exact q5 i) (fun i => by rw [Cert.ReferenceIdeal.RawRun.Z1_arg6]; exact q6 i) hw hb hs e0
  have e2 := stageSp0 m ρ c m' a1 a2 e1
  have e3 := stageGN1 m ρ c (Cert.ReferenceIdeal.RawRun.Z3 (F := Ideal) (launchContents m' c))
    (fun i => by rw [Cert.ReferenceIdeal.RawRun.Z3_arg4]; exact q4 i) (fun i => by rw [Cert.ReferenceIdeal.RawRun.Z3_arg5]; exact q5 i) (fun i => by rw [Cert.ReferenceIdeal.RawRun.Z3_arg6]; exact q6 i) hw hb hs e2
  have e4 := stageGN2 m ρ c (Cert.ReferenceIdeal.RawRun.Z4 (F := Ideal) (launchContents m' c))
    (fun i => by rw [Cert.ReferenceIdeal.RawRun.Z4_arg4]; exact q4 i) (fun i => by rw [Cert.ReferenceIdeal.RawRun.Z4_arg5]; exact q5 i) (fun i => by rw [Cert.ReferenceIdeal.RawRun.Z4_arg6]; exact q6 i) hw hb hs e3
  have e5 := stageSp1 m ρ c m' a1 a2 e4
  have e6 := stageGN3 m ρ c (Cert.ReferenceIdeal.RawRun.Z6 (F := Ideal) (launchContents m' c))
    (fun i => by rw [Cert.ReferenceIdeal.RawRun.Z6_arg4]; exact q4 i) (fun i => by rw [Cert.ReferenceIdeal.RawRun.Z6_arg5]; exact q5 i) (fun i => by rw [Cert.ReferenceIdeal.RawRun.Z6_arg6]; exact q6 i) hw hb hs e5
  exact stageGN4 m ρ c (Cert.ReferenceIdeal.RawRun.Z7 (F := Ideal) (launchContents m' c))
    (fun i => by rw [Cert.ReferenceIdeal.RawRun.Z7_arg4]; exact q4 i) (fun i => by rw [Cert.ReferenceIdeal.RawRun.Z7_arg5]; exact q5 i) (fun i => by rw [Cert.ReferenceIdeal.RawRun.Z7_arg6]; exact q6 i) hw hb hs e6

end Cert.Asm

end
-- ==== Proof.lean ====
import proofs.«415927_j1254130450626_1_alg».proof.Defs
import proofs.«415927_j1254130450626_1_alg».proof.Proof.Gen.Kernel
import proofs.«415927_j1254130450626_1_alg».proof.Proof.Gen.Kernel.Skeleton
import proofs.«415927_j1254130450626_1_alg».proof.Proof.Gen.Kernel.Launch
import proofs.«415927_j1254130450626_1_alg».proof.Proof.Gen.Kernel.Points
import proofs.«415927_j1254130450626_1_alg».proof.Proof.Gen.Kernel.Frame
import proofs.«415927_j1254130450626_1_alg».proof.Proof.Gen.KernelIdeal
import proofs.«415927_j1254130450626_1_alg».proof.Proof.Gen.KernelIdeal.Skeleton
import proofs.«415927_j1254130450626_1_alg».proof.Proof.Gen.KernelIdeal.Launch
import proofs.«415927_j1254130450626_1_alg».proof.Proof.Gen.KernelIdeal.Points
import proofs.«415927_j1254130450626_1_alg».proof.Proof.Gen.KernelIdeal.Frame
import proofs.«415927_j1254130450626_1_alg».proof.Proof.Gen.ReferenceIdeal
import proofs.«415927_j1254130450626_1_alg».proof.Proof.Gen.Pre_finite_inputs
import proofs.«415927_j1254130450626_1_alg».proof.Proof.KernelRun
import proofs.«415927_j1254130450626_1_alg».proof.Proof.RefRun2
import proofs.«415927_j1254130450626_1_alg».proof.Proof.Final
import Idealize.ShloMosaic.Adequacy
import Idealize.ShloMosaic.Init

set_option maxRecDepth 16384

noncomputable section

namespace Cert.Proof.Claims
open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c =>
    ⟨(h c Cert.ReferenceIdeal.main_arg0).trans (Cert.ReferenceIdeal.RawRun.Z8_arg0 _), (h c Cert.ReferenceIdeal.main_arg1).trans (Cert.ReferenceIdeal.RawRun.Z8_arg1 _), (h c Cert.ReferenceIdeal.main_arg2).trans (Cert.ReferenceIdeal.RawRun.Z8_arg2 _),
     (h c Cert.ReferenceIdeal.main_arg3).trans (Cert.ReferenceIdeal.RawRun.Z8_arg3 _), (h c Cert.ReferenceIdeal.main_arg4).trans (Cert.ReferenceIdeal.RawRun.Z8_arg4 _), (h c Cert.ReferenceIdeal.main_arg5).trans (Cert.ReferenceIdeal.RawRun.Z8_arg5 _),
     (h c Cert.ReferenceIdeal.main_arg6).trans (Cert.ReferenceIdeal.RawRun.Z8_arg6 _)⟩) (Cert.ReferenceIdeal.RawRun.run_fold (F := Ideal) m ρ)
theorem preserves : Cert.preserves_Kernel_KernelIdeal := trivial

theorem algebraic : Cert.algebraic_KernelIdeal_ReferenceIdeal := by
  intro m ρ m' ρ' hpre hagree
  refine ⟨fun c => Cert.KernelIdeal.Gen.W33 (F := Ideal) m ρ c (Proc.devRef .tc Cert.KernelIdeal.main_v204), Cert.KernelIdeal.Gen.run_result m ρ, ?_⟩
  refine (θ_run Cert.ReferenceIdeal.defs _ _).mono (fun r h c =>
    ⟨(h c Cert.ReferenceIdeal.main_v198).trans ?_, (h c Cert.ReferenceIdeal.main_arg0).trans (Cert.ReferenceIdeal.RawRun.Z8_arg0 _), (h c Cert.ReferenceIdeal.main_arg1).trans (Cert.ReferenceIdeal.RawRun.Z8_arg1 _), (h c Cert.ReferenceIdeal.main_arg2).trans (Cert.ReferenceIdeal.RawRun.Z8_arg2 _),
     (h c Cert.ReferenceIdeal.main_arg3).trans (Cert.ReferenceIdeal.RawRun.Z8_arg3 _), (h c Cert.ReferenceIdeal.main_arg4).trans (Cert.ReferenceIdeal.RawRun.Z8_arg4 _), (h c Cert.ReferenceIdeal.main_arg5).trans (Cert.ReferenceIdeal.RawRun.Z8_arg5 _),
     (h c Cert.ReferenceIdeal.main_arg6).trans (Cert.ReferenceIdeal.RawRun.Z8_arg6 _)⟩) (Cert.ReferenceIdeal.RawRun.run_fold (F := Ideal) m' ρ')
  show (Cert.ReferenceIdeal.RawRun.Z8 (F := Ideal) (launchContents m' c) (Proc.devRef .tc Cert.ReferenceIdeal.main_v198) : Spec.Mat 100000 128) = (Cert.KernelIdeal.Gen.W33 (F := Ideal) m ρ c (Proc.devRef .tc Cert.KernelIdeal.main_v204) : Spec.Mat 100000 128)
  exact funext fun j => (Cert.Asm.final_eq m ρ c m' hpre (hagree c) j).symm

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
